-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x1600000 32) (main_arg6 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩
abbrev S64x128 : Shape := ⟨2, ![64, 128]⟩
abbrev S5000x1 : Shape := ⟨2, ![5000, 1]⟩
abbrev S5000x128 : Shape := ⟨2, ![5000, 128]⟩
abbrev S64x1 : Shape := ⟨2, ![64, 1]⟩
abbrev S5000x64 : Shape := ⟨2, ![5000, 64]⟩

abbrev nBuf : Space → Nat
  | .hbm => 56
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x1, .i32⟩
  | .hbm, ⟨55, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x1, .f32⟩
  | .local _ .vmem, ⟨20, _⟩ => ⟨S2000x1, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S5000x1, .i32⟩
  | .local _ .vmem, ⟨33, _⟩ => ⟨S5000x1, .i32⟩
  | .local _ .vmem, ⟨34, _⟩ => ⟨S5000x128, .f32⟩
  | .local _ .vmem, ⟨35, _⟩ => ⟨S5000x128, .f32⟩
  | .local _ .vmem, ⟨36, _⟩ => ⟨S64x128, .f32⟩
  | .local _ .vmem, ⟨37, _⟩ => ⟨S64x128, .f32⟩
  | .local _ .vmem, ⟨38, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_scratch0 : Ref sig .tc := ⟨.vmem, 37, rfl⟩
abbrev cc4_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S64x1_S64x128 : S64x1.Broadcasts S64x128
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S100000x1.size a
  hwx4_0 : ∀ i : grid4.Coords, EltTy.bits .i32 = 32 ∨ (Rect.block (s := S100000x1) S5000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S2x1600000, .i32⟩
  | 6 => ⟨S100000, .i32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S_, .f32⟩
  | 70 => ⟨S1600000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S1600000x1, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S64x128, .f32⟩
  | 127 => ⟨S100000x1, .i32⟩
  | _ => ⟨S100000x128, .f32⟩

abbrev hbmTy0_1 (i : Nat) : BufTy := match i % 128 with
  | 0 => ⟨S64x128, .f32⟩
  | 1 => ⟨S_, .f32⟩
  | 2 => ⟨S100000, .f32⟩
  | 3 => ⟨S_, .f32⟩
  | 4 => ⟨S64, .f32⟩
  | 5 => ⟨S100000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x128, .f32⟩
  | 12 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KB.Reg0.lean ====
import proofs.«427324_j33749853012495_3_alg».proof.Proof.Gen.Kernel.Launch
import proofs.«427324_j33749853012495_3_alg».proof.Proof.Gen.Kernel.Skeleton
import proofs.«427324_j33749853012495_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev tileRect0 : Rect S2000x128 := Rect.unit (s := S2000x128) ![0, 0] S2000x128.size inb_S2000x128_S2000x128_0_0
abbrev weightRect0 : Rect S128x128 := Rect.unit (s := S128x128) ![0, 0] S128x128.size inb_S128x128_S128x128_0_0
abbrev factorRect0 : Rect S2000x1 := Rect.unit (s := S2000x1) ![0, 0] S2000x1.size inb_S2000x1_S2000x1_0_0

def out0_3 (x0 : Vec F S2000x128 .f32) (x1 : Vec F S128x128 .f32) (x2 : Vec F S2000x1 .f32) : Vec F S2000x128 .f32 :=
  View.canon [⟨tileRect0, k0_pay1 (View.ld x0 tileRect0) (View.ld x1 weightRect0) (View.ld x2 factorRect0)⟩]

theorem cover0_3 (p0 : Vec F S2000x128 .f32) (y : S2000x128.Idx) :
    ∃ pc ∈ ([⟨tileRect0, p0⟩] : List (View.Piece (Elt F) S2000x128 .f32)), y ∈ pc.1.set :=
  View.cover_of_tiled [⟨tileRect0, p0⟩] S2000x128.size (by rfl) y

/-- The body's triple: it runs to its end, the inputs as found and the output at one store of the body's value on them. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .f32) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_matmul_kernel i arg1 harg1 arg2 harg2 arg3 harg3 arg4 harg4) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
import proofs.«427324_j33749853012495_3_alg».proof.Proof.Gen.Kernel.Launch
import proofs.«427324_j33749853012495_3_alg».proof.Proof.Gen.Kernel.Skeleton
import proofs.«427324_j33749853012495_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev tileRect1 : Rect S2000x128 := Rect.unit (s := S2000x128) ![0, 0] S2000x128.size inb_S2000x128_S2000x128_0_0
abbrev factorRect1 : Rect S2000x1 := Rect.unit (s := S2000x1) ![0, 0] S2000x1.size inb_S2000x1_S2000x1_0_0
abbrev biasRect1 : Rect S1x128 := Rect.unit (s := S1x128) ![0, 0] S1x128.size inb_S1x128_S1x128_0_0

def out1_4 (x0 : Vec F S2000x128 .f32) (x1 : Vec F S2000x128 .f32) (x2 : Vec F S2000x1 .f32) (x3 : Vec F S1x128 .f32) : Vec F S2000x128 .f32 :=
  View.canon [⟨tileRect1, k1_pay1 (View.ld x2 factorRect1) (View.ld x0 tileRect1) (View.ld x1 tileRect1) (View.ld x3 biasRect1)⟩]

theorem cover1_4 (p0 : Vec F S2000x128 .f32) (y : S2000x128.Idx) :
    ∃ pc ∈ ([⟨tileRect1, p0⟩] : List (View.Piece (Elt F) S2000x128 .f32)), y ∈ pc.1.set :=
  View.cover_of_tiled [⟨tileRect1, p0⟩] S2000x128.size (by rfl) y

/-- The body's triple: it runs to its end, the inputs as found and the output at one store of the body's value on them. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__epilogue_kernel i arg1 harg1 arg2 harg2 arg3 harg3 arg4 harg4 arg5 harg5) K := by
  simp only [cc1__epilogue_kernel_eq_skeleton]; unfold cc1__epilogue_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«427324_j33749853012495_3_alg».proof.Proof.Gen.Kernel.Launch
import proofs.«427324_j33749853012495_3_alg».proof.Proof.Gen.Kernel.Skeleton
import proofs.«427324_j33749853012495_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev tileRect2 : Rect S2000x128 := Rect.unit (s := S2000x128) ![0, 0] S2000x128.size inb_S2000x128_S2000x128_0_0
abbrev weightRect2 : Rect S128x128 := Rect.unit (s := S128x128) ![0, 0] S128x128.size inb_S128x128_S128x128_0_0
abbrev factorRect2 : Rect S2000x1 := Rect.unit (s := S2000x1) ![0, 0] S2000x1.size inb_S2000x1_S2000x1_0_0

def out2_3 (x0 : Vec F S2000x128 .f32) (x1 : Vec F S128x128 .f32) (x2 : Vec F S2000x1 .f32) : Vec F S2000x128 .f32 :=
  View.canon [⟨tileRect2, k2_pay1 (View.ld x0 tileRect2) (View.ld x1 weightRect2) (View.ld x2 factorRect2)⟩]

theorem cover2_3 (p0 : Vec F S2000x128 .f32) (y : S2000x128.Idx) :
    ∃ pc ∈ ([⟨tileRect2, p0⟩] : List (View.Piece (Elt F) S2000x128 .f32)), y ∈ pc.1.set :=
  View.cover_of_tiled [⟨tileRect2, p0⟩] S2000x128.size (by rfl) y

/-- The body's triple: it runs to its end, the inputs as found and the output at one store of the body's value on them. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .f32) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gcn_matmul_kernel i arg1 harg1 arg2 harg2 arg3 harg3 arg4 harg4) K := by
  simp only [cc2__gcn_matmul_kernel_eq_skeleton]; unfold cc2__gcn_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
import proofs.«427324_j33749853012495_3_alg».proof.Proof.KB.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The fourth launch runs the second launch's kernel function: the two printed bodies are the same term. -/
theorem cc3_eq_cc1 : cc3__epilogue_kernel (F := F) = cc1__epilogue_kernel (F := F) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_cc1]
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk3 V c 0 t) (iblk3 V c 1 t) (iblk3 V c 2 t) (iblk3 V c 3 t) _)
  iframe
  isplitl [H4]; · iexists _; iexact H4
  iintro ⟨H0, H1, H2, H3, H4⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4Runs.lean ====
import proofs.«427324_j33749853012495_3_alg».proof.Proof.Gen.Kernel.Launch
import proofs.«427324_j33749853012495_3_alg».proof.Proof.Gen.Kernel.Skeleton
import proofs.«427324_j33749853012495_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev VO4_2 : View sig .tc .vmem S64x128 .f32 := (Memref.whole cc4_stg2_0 : Memref sig .tc .vmem S64x128 .f32).view
abbrev ms4_0 (t : Fin cfg4.N) : Memref sig .tc .vmem S5000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x128 .f32 := win4_2.stage (cfg4.slots t 2)
abbrev hs4_2 (t : Fin cfg4.N) : (ms4_2 t).IsWhole := hstage4_2 ((cfg4.slots t 2).cast nbuf4_2)
abbrev scM4_0 : Memref sig .tc .vmem S64x128 .f32 := Memref.whole cc4_scratch0
abbrev scM4_1 : Memref sig .tc .vmem S64x1 .f32 := Memref.whole cc4_scratch1
abbrev VS4_0 : View sig .tc .vmem S64x128 .f32 := scM4_0.view
abbrev VS4_1 : View sig .tc .vmem S64x1 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.KB.Reg4RunA.lean ====
import proofs.«427324_j33749853012495_3_alg».proof.Proof.KB.Reg4Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first point's run: the pieces it leaves in the result buffer (none) and in the two accumulators, with its triple. -/
def kernelRun4_A (c : Dev nD) (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : cond4_0 i) (hc1 : ¬cond4_1 i)
    (x0 : Vec F S5000x1 .i32) (x1 : Vec F S5000x128 .f32) :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.KB.Reg4RunB.lean ====
import proofs.«427324_j33749853012495_3_alg».proof.Proof.KB.Reg4RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A middle point's run, the accumulators entering at `xs0`, `xs1`: the pieces it leaves, with its triple. -/
def kernelRun4_B (c : Dev nD) (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond4_0 i) (hc1 : ¬cond4_1 i)
    (x0 : Vec F S5000x1 .i32) (x1 : Vec F S5000x128 .f32) (xs0 : Vec F S64x128 .f32) (xs1 : Vec F S64x1 .f32) :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.KB.Reg4RunC.lean ====
import proofs.«427324_j33749853012495_3_alg».proof.Proof.KB.Reg4RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The last point's run, the accumulators entering at `xs0`, `xs1`: the pieces it leaves in all three buffers, with its triple. -/
def kernelRun4_C (c : Dev nD) (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond4_0 i) (hc1 : cond4_1 i)
    (x0 : Vec F S5000x1 .i32) (x1 : Vec F S5000x128 .f32) (xs0 : Vec F S64x128 .f32) (xs1 : Vec F S64x1 .f32) :
    Σ' (L2 : List (View.Piece (Elt F) S64x128 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨?_, ?_, ?_, fun E K => ?run⟩
  case run =>
    simp only [cc4__pool_kernel_eq_skeleton]; unfold cc4__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.Kernel.Hand

end
-- ==== Proof.KB.Reg4.lean ====
import proofs.«427324_j33749853012495_3_alg».proof.Proof.KB.Reg4RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD)

section Cases

variable (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole)

section A

variable (hc0 : cond4_0 i) (hc1 : ¬cond4_1 i) (x0 : Vec F S5000x1 .i32) (x1 : Vec F S5000x128 .f32)

def out4_A_2 : Vec F S64x128 .f32 :=
  VO4_2.read (Elt F) (VO4_2.writes (Elt F) VO4_2.junk (kernelRun4_A c i arg1 harg1 arg2 harg2 arg3 harg3 arg4 harg4 arg5 harg5 hc0 hc1 x0 x1).1)

theorem scover4_A_0 (y : S64x128.Idx) : ∃ pc ∈ (kernelRun4_A c i arg1 harg1 arg2 harg2 arg3 harg3 arg4 harg4 arg5 harg5 hc0 hc1 x0 x1).2.1, y ∈ pc.1.set :=
  View.cover_of_tiledL _ S64x128.size (by sl_kernel_rfl) y

def sout4_A_0 : Vec F S64x128 .f32 :=
  VS4_0.read (Elt F) (VS4_0.writes (Elt F) VS4_0.junk (kernelRun4_A c i arg1 harg1 arg2 harg2 arg3 harg3 arg4 harg4 arg5 harg5 hc0 hc1 x0 x1).2.1)

theorem scover4_A_1 (y : S64x1.Idx) : ∃ pc ∈ (kernelRun4_A c i arg1 harg1 arg2 harg2 arg3 harg3 arg4 harg4 arg5 harg5 hc0 hc1 x0 x1).2.2.1, y ∈ pc.1.set :=
  View.cover_of_tiledL _ S64x1.size (by sl_kernel_rfl) y

def sout4_A_1 : Vec F S64x1 .f32 :=
  VS4_1.read (Elt F) (VS4_1.writes (Elt F) VS4_1.junk (kernelRun4_A c i arg1 harg1 arg2 harg2 arg3 harg3 arg4 harg4 arg5 harg5 hc0 hc1 x0 x1).2.2.1)

end A

section B

variable (hc0 : ¬cond4_0 i) (hc1 : ¬cond4_1 i) (x0 : Vec F S5000x1 .i32) (x1 : Vec F S5000x128 .f32) (xs0 : Vec F S64x128 .f32) (xs1 : Vec F S64x1 .f32)

def out4_B_2 : Vec F S64x128 .f32 :=
  VO4_2.read (Elt F) (VO4_2.writes (Elt F) VO4_2.junk (kernelRun4_B c i arg1 harg1 arg2 harg2 arg3 harg3 arg4 harg4 arg5 harg5 hc0 hc1 x0 x1 xs0 xs1).1)

theorem scover4_B_0 (y : S64x128.Idx) : ∃ pc ∈ (kernelRun4_B c i arg1 harg1 arg2 harg2 arg3 harg3 arg4 harg4 arg5 harg5 hc0 hc1 x0 x1 xs0 xs1).2.1, y ∈ pc.1.set :=
  View.cover_of_tiledL _ S64x128.size (by sl_kernel_rfl) y

def sout4_B_0 : Vec F S64x128 .f32 :=
  VS4_0.read (Elt F) (VS4_0.writes (Elt F) VS4_0.junk (kernelRun4_B c i arg1 harg1 arg2 harg2 arg3 harg3 arg4 harg4 arg5 harg5 hc0 hc1 x0 x1 xs0 xs1).2.1)

theorem scover4_B_1 (y : S64x1.Idx) : ∃ pc ∈ (kernelRun4_B c i arg1 harg1 arg2 harg2 arg3 harg3 arg4 harg4 arg5 harg5 hc0 hc1 x0 x1 xs0 xs1).2.2.1, y ∈ pc.1.set :=
  View.cover_of_tiledL _ S64x1.size (by sl_kernel_rfl) y

def sout4_B_1 : Vec F S64x1 .f32 :=
  VS4_1.read (Elt F) (VS4_1.writes (Elt F) VS4_1.junk (kernelRun4_B c i arg1 harg1 arg2 harg2 arg3 harg3 arg4 harg4 arg5 harg5 hc0 hc1 x0 x1 xs0 xs1).2.2.1)

end B

section C

variable (hc0 : ¬cond4_0 i) (hc1 : cond4_1 i) (x0 : Vec F S5000x1 .i32) (x1 : Vec F S5000x128 .f32) (xs0 : Vec F S64x128 .f32) (xs1 : Vec F S64x1 .f32)

theorem cover4_C_2 (y : S64x128.Idx) : ∃ pc ∈ (kernelRun4_C c i arg1 harg1 arg2 harg2 arg3 harg3 arg4 harg4 arg5 harg5 hc0 hc1 x0 x1 xs0 xs1).1, y ∈ pc.1.set :=
  View.cover_of_tiledL _ S64x128.size (by sl_kernel_rfl) y

def out4_C_2 : Vec F S64x128 .f32 :=
  VO4_2.read (Elt F) (VO4_2.writes (Elt F) VO4_2.junk (kernelRun4_C c i arg1 harg1 arg2 harg2 arg3 harg3 arg4 harg4 arg5 harg5 hc0 hc1 x0 x1 xs0 xs1).1)

theorem scover4_C_0 (y : S64x128.Idx) : ∃ pc ∈ (kernelRun4_C c i arg1 harg1 arg2 harg2 arg3 harg3 arg4 harg4 arg5 harg5 hc0 hc1 x0 x1 xs0 xs1).2.1, y ∈ pc.1.set :=
  View.cover_of_tiledL _ S64x128.size (by sl_kernel_rfl) y

def sout4_C_0 : Vec F S64x128 .f32 :=
  VS4_0.read (Elt F) (VS4_0.writes (Elt F) VS4_0.junk (kernelRun4_C c i arg1 harg1 arg2 harg2 arg3 harg3 arg4 harg4 arg5 harg5 hc0 hc1 x0 x1 xs0 xs1).2.1)

theorem scover4_C_1 (y : S64x1.Idx) : ∃ pc ∈ (kernelRun4_C c i arg1 harg1 arg2 harg2 arg3 harg3 arg4 harg4 arg5 harg5 hc0 hc1 x0 x1 xs0 xs1).2.2.1, y ∈ pc.1.set :=
  View.cover_of_tiledL _ S64x1.size (by sl_kernel_rfl) y

def sout4_C_1 : Vec F S64x1 .f32 :=
  VS4_1.read (Elt F) (VS4_1.writes (Elt F) VS4_1.junk (kernelRun4_C c i arg1 harg1 arg2 harg2 arg3 harg3 arg4 harg4 arg5 harg5 hc0 hc1 x0 x1 xs0 xs1).2.2.1)

end C

end Cases

variable (t : Fin cfg4.N)

/-- A quantity of one case of the body, taken at grid point `t`: at the point's memrefs, conditions and input blocks. -/
noncomputable def atPt4 {α : Type} {P0 P1 : grid4.Coords → Prop}
    (f : (c : Dev nD) → (i : grid4.Coords) → (arg1 : Memref sig .tc .vmem S5000x1 .i32) → arg1.IsWhole → (arg2 : Memref sig .tc .vmem S5000x128 .f32) → arg2.IsWhole → (arg3 : Memref sig .tc .vmem S64x128 .f32) → arg3.IsWhole → (arg4 : Memref sig .tc .vmem S64x128 .f32) → arg4.IsWhole → (arg5 : Memref sig .tc .vmem S64x1 .f32) → arg5.IsWhole → P0 i → P1 i → Vec F S5000x1 .i32 → Vec F S5000x128 .f32 → α)
    (h0 : P0 (grid4.coords t)) (h1 : P1 (grid4.coords t)) : α :=
  f c (grid4.coords t) (ms4_0 t) (hs4_0 t) (ms4_1 t) (hs4_1 t) (ms4_2 t) (hs4_2 t) scM4_0 (Memref.isWhole_whole _) scM4_1 (Memref.isWhole_whole _) h0 h1 (iblk4 V c 0 t) (iblk4 V c 1 t)

/-- What each case leaves at point `t` in the result buffer and the two accumulators; a later point is entered with the accumulators at `xs`. -/
def outs4_A (h0 : cond4_0 (grid4.coords t)) (h1 : ¬cond4_1 (grid4.coords t)) :=
  (atPt4 V c t out4_A_2 h0 h1, atPt4 V c t sout4_A_0 h0 h1, atPt4 V c t sout4_A_1 h0 h1)
def outs4_B (h0 : ¬cond4_0 (grid4.coords t)) (h1 : ¬cond4_1 (grid4.coords t)) (xs : Vec F S64x128 .f32 × Vec F S64x1 .f32) :=
  (atPt4 V c t out4_B_2 h0 h1 xs.1 xs.2, atPt4 V c t sout4_B_0 h0 h1 xs.1 xs.2, atPt4 V c t sout4_B_1 h0 h1 xs.1 xs.2)
def outs4_C (h0 : ¬cond4_0 (grid4.coords t)) (h1 : cond4_1 (grid4.coords t)) (xs : Vec F S64x128 .f32 × Vec F S64x1 .f32) :=
  (atPt4 V c t out4_C_2 h0 h1 xs.1 xs.2, atPt4 V c t sout4_C_0 h0 h1 xs.1 xs.2, atPt4 V c t sout4_C_1 h0 h1 xs.1 xs.2)

/-- After position `n`: the case the closed forms select, entered with what position `n - 1` left in the accumulators. -/
def outsAt4 : (n : ℕ) → n < cfg4.N → Vec F S64x128 .f32 × Vec F S64x128 .f32 × Vec F S64x1 .f32
  | 0, hn => outs4_A V c ⟨0, hn⟩ ((hcond4_0 _).mpr (Nat.zero_mod _)) (mt (hcond4_1 _).mp (by decide : ¬0 % 20 = 19))
  | n + 1, hn =>
    have h0 := mt (hcond4_0 ⟨n + 1, hn⟩).mp (show ¬(n + 1) % 20 = 0 by have := lt_of_lt_of_eq hn N_4; omega)
    if h1 : (n + 1) % 20 = 19 then outs4_C V c ⟨n + 1, hn⟩ h0 ((hcond4_1 _).mpr h1) (outsAt4 n (Nat.lt_of_succ_lt hn)).2
    else outs4_B V c ⟨n + 1, hn⟩ h0 (mt (hcond4_1 _).mp h1) (outsAt4 n (Nat.lt_of_succ_lt hn)).2

theorem outsAt4_A (h0 : t.val % 20 = 0) (h1 : ¬t.val % 20 = 19) :
    outsAt4 V c t.val t.isLt = outs4_A V c t ((hcond4_0 t).mpr h0) (mt (hcond4_1 t).mp h1) := by
  obtain ⟨_ | n, hn⟩ := t
  · rfl
  · exact absurd h0 (show ¬(n + 1) % 20 = 0 by have := lt_of_lt_of_eq hn N_4; omega)

theorem outsAt4_B (h0 : ¬t.val % 20 = 0) (h1 : ¬t.val % 20 = 19) :
    outsAt4 V c t.val t.isLt = outs4_B V c t (mt (hcond4_0 t).mp h0) (mt (hcond4_1 t).mp h1) (outsAt4 V c (t.val - 1) (Nat.lt_of_le_of_lt (Nat.sub_le _ _) t.isLt)).2 := by
  obtain ⟨_ | n, hn⟩ := t
  · exact absurd (Nat.zero_mod _) h0
  · exact (dif_neg h1).trans rfl

theorem outsAt4_C (h0 : ¬t.val % 20 = 0) (h1 : t.val % 20 = 19) :
    outsAt4 V c t.val t.isLt = outs4_C V c t (mt (hcond4_0 t).mp h0) ((hcond4_1 t).mpr h1) (outsAt4 V c (t.val - 1) (Nat.lt_of_le_of_lt (Nat.sub_le _ _) t.isLt)).2 := by
  obtain ⟨_ | n, hn⟩ := t
  · exact absurd (Nat.zero_mod _) h0
  · exact (dif_pos h1).trans rfl

/-- The launch's invariant with the two accumulators at `xs`. -/
def inv4 (xs : Vec F S64x128 .f32 × Vec F S64x1 .f32) : sProp 𝕄 :=
  iprop(iprop(iprop(owns (c : Thread nD τ) scM4_0 fullShare xs.1 ∗ owns (c : Thread nD τ) scM4_1 fullShare xs.2)
    ∗ Pipeline.scopedRestBut spec4 c [cc4_scratch0, cc4_scratch1]) ∗ (∃ r, prngReg c r))

/-- Before the first point the launch's invariant, afterwards the accumulators at what the point before left. -/
def PhiS4 : (n : ℕ) → n ≤ cfg4.N → sProp 𝕄
  | 0, _ => Pipeline.ΦA spec4 c
  | n + 1, hn => inv4 c (outsAt4 V c n hn).2

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (w : Fin cfg4.W) : (dat4 V c).A w = V c (Pipeline.arrRef spec4 w) := rfl
theorem after4_0 : (dat4 V c).after 0 t = iblk4 V c 0 t := rfl
theorem after4_1 : (dat4 V c).after 1 t = iblk4 V c 1 t := rfl
theorem after4_2 : (dat4 V c).after 2 t = (outsAt4 V c t.val t.isLt).1 := rfl

theorem Phi4_zero (hz : t.val = 0) : (dat4 V c).Φ t.castSucc = Pipeline.ΦA spec4 c := by
  obtain ⟨_ | n, hn⟩ := t
  · rfl
  · exact absurd hz (Nat.succ_ne_zero n)

theorem Phi4_pos (hz : t.val ≠ 0) :
    (dat4 V c).Φ t.castSucc = inv4 c (outsAt4 V c (t.val - 1) (Nat.lt_of_le_of_lt (Nat.sub_le _ _) t.isLt)).2 := by
  obtain ⟨_ | n, hn⟩ := t
  · exact absurd rfl hz
  · rfl

theorem leaves4_live (w : Fin cfg4.W) (h : cfg4.idle w (cfg4.grid.coords t) = false) :
    (dat4 V c).leavesExact w t = owns (c : Thread nD τ) ((cfg4.win w).stage (cfg4.slots t w)) fullShare ((dat4 V c).after w t) := by
  unfold Dat.leavesExact; rw [h]

/-- A buffer held at pieces that cover it is held at those pieces read back, over anything. -/
theorem owns_of_cover {s : Shape} {e : EltTy} (M : Memref sig .tc .vmem s e) {κ' : Kind} {sp' : Space} (v' : View sig κ' sp' s e) {L : List (View.Piece (Elt F) s e)}
    (h : ∀ y, ∃ pc ∈ L, y ∈ pc.1.set) :
    iprop(∃ f, M.view.loc (c : Thread nD τ) ↦[M.view.set]{fullShare} M.view.writes (Elt F) f L)
      ⊢ (owns (c : Thread nD τ) M fullShare (v'.read (Elt F) (v'.writes (Elt F) v'.junk L)) : sProp 𝕄) := by
  iintro ⟨%f, H⟩; unfold owns; iexists _; isplitr
  swap; · iexact H
  ipureintro; exact View.read_writes_of_cover _ _ _ _ _ h

/-- Around one run of the body: the invariant lends it the accumulators and takes them back as the run leaves them; all else passes through. -/
theorem frame4 {wpp : (PUnit → sProp 𝕄) → sProp 𝕄} {D0 D1 D2 : Type} {I0 I1 A0 A1 S0 S1 S0' S1' R G O Q : sProp 𝕄} {W0 W W' : D2 → sProp 𝕄}
    (run : ∀ d K, iprop(I0 ∗ I1 ∗ W d ∗ A0 ∗ A1 ∗ (iprop(I0 ∗ I1 ∗ W' d ∗ S0 ∗ S1) -∗ K ⟨⟩)) ⊢ wpp K)
    (h0 : S0 ⊢ S0') (h1 : S1 ⊢ S1') (hW0 : ∀ d, W0 d ⊢ W d) (hW : (∃ d, W' d) ⊢ Q) :
    iprop(iprop(iprop(iprop(A0 ∗ A1) ∗ R) ∗ G) ∗ O ∗ (∃ _ : D0, I0) ∗ (∃ _ : D1, I1) ∗ ∃ d, W0 d)
      ⊢ wpp fun _ => iprop(iprop(iprop(iprop(S0' ∗ S1') ∗ R) ∗ G) ∗ O ∗ I0 ∗ I1 ∗ Q) := by
  iintro ⟨⟨⟨⟨HS0, HS1⟩, Hr⟩, Hg⟩, Ho, ⟨%d0, H0⟩, ⟨%d1, H1⟩, ⟨%d2, H2⟩⟩
  iapply run d2
  iframe H0 H1 HS0 HS1
  isplitl [H2]; · iapply hW0 d2; iexact H2
  iintro ⟨H0, H1, H2, HS0, HS1⟩
  iframe Hr Hg Ho H0 H1
  isplitl [HS0 HS1]
  · isplitl [HS0]
    · iapply h0; iexact HS0
    · iapply h1; iexact HS1
  iapply hW; iexists d2; iexact H2

/-- The body at any point: the closed forms say which case the point is in, and that case's run sits in the frame. -/
theorem sound_body4 :
    iprop((dat4 V c).Φ t.castSucc ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d)))
    ⊢ wp frame (wpE (defs₀ (F := F)) Variants.none c none) Set.univ (bodyAt4 t) fun _ =>
      iprop(inv4 c (outsAt4 V c t.val t.isLt).2 ∗ (dat4 V c).owesAt () t.castSucc
        ∗ (dat4 V c).leavesExact 0 t ∗ (dat4 V c).leavesExact 1 t ∗ (dat4 V c).leavesExact 2 t) := by
  unfold bodyAt4 ms4_0 ms4_1 ms4_2
  simp only [show ∀ t d, (dat4 V c).before 0 t d = iblk4 V c 0 t from (dat4 V c).before_in_eq_fetched 0 rfl (fun _ => rfl) (fun _ _ _ => rfl) (fun _ => rfl),
    show ∀ t d, (dat4 V c).before 1 t d = iblk4 V c 1 t from (dat4 V c).before_in_eq_fetched 1 rfl (fun _ => rfl) (fun _ _ _ => rfl) (fun _ => rfl)]
  rw [leaves4_live V c t 0 (liveAt4_0 t), after4_0, leaves4_live V c t 1 (liveAt4_1 t), after4_1]
  have hN : t.val < 20 := lt_of_lt_of_eq t.isLt N_4
  by_cases h0 : t.val % 20 = 0
  · have h1 : ¬t.val % 20 = 19 := by omega
    have H0 := (hcond4_0 t).mpr h0
    have H1 := mt (hcond4_1 t).mp h1
    rw [Dat.leavesExact_idle (dat4 V c) 2 t (idleAt4_2_A t H0 H1) (noFlush4_2_A t H0 H1), outsAt4_A V c t h0 h1,
      Phi4_zero V c t (by omega), PhiA4_eq]
    unfold inv4 outs4_A atPt4 sout4_A_0 sout4_A_1; dsimp only
    exact frame4 (fun _ K => (kernelRun4_A c (grid4.coords t) _ _ _ _ _ _ _ _ _ _ H0 H1 (iblk4 V c 0 t) (iblk4 V c 1 t)).2.2.2 _ _ K)
      (owns_of_cover c _ _ (scover4_A_0 c _ _ _ _ _ _ _ _ _ _ _ _ _ _ _)) (owns_of_cover c _ _ (scover4_A_1 c _ _ _ _ _ _ _ _ _ _ _ _ _ _ _)) (fun _ => .rfl) .rfl
  · have H0 := mt (hcond4_0 t).mp h0
    rw [Phi4_pos V c t (by omega)]
    by_cases h1 : t.val % 20 = 19
    · have H1 := (hcond4_1 t).mpr h1
      rw [leaves4_live V c t 2 (liveAt4_2_C t H0 H1), after4_2, outsAt4_C V c t h0 h1]
      unfold inv4 outs4_C atPt4 out4_C_2 sout4_C_0 sout4_C_1; dsimp only
      exact frame4 (fun _ K => (kernelRun4_C c (grid4.coords t) _ _ _ _ _ _ _ _ _ _ H0 H1 (iblk4 V c 0 t) (iblk4 V c 1 t) _ _).2.2.2 _ K)
        (owns_of_cover c _ _ (scover4_C_0 c _ _ _ _ _ _ _ _ _ _ _ _ _ _ _ _ _)) (owns_of_cover c _ _ (scover4_C_1 c _ _ _ _ _ _ _ _ _ _ _ _ _ _ _ _ _)) (fun _ => exists_intro _) (exists_elim fun _ => owns_of_cover c _ _ (cover4_C_2 c _ _ _ _ _ _ _ _ _ _ _ _ _ _ _ _ _))
    · have H1 := mt (hcond4_1 t).mp h1
      rw [Dat.leavesExact_idle (dat4 V c) 2 t (idleAt4_2_B t H0 H1) (noFlush4_2_B t H0 H1), outsAt4_B V c t h0 h1]
      unfold inv4 outs4_B atPt4 sout4_B_0 sout4_B_1; dsimp only
      exact frame4 (fun _ K => (kernelRun4_B c (grid4.coords t) _ _ _ _ _ _ _ _ _ _ H0 H1 (iblk4 V c 0 t) (iblk4 V c 1 t) _ _).2.2.2 _ _ K)
        (owns_of_cover c _ _ (scover4_B_0 c _ _ _ _ _ _ _ _ _ _ _ _ _ _ _ _ _)) (owns_of_cover c _ _ (scover4_B_1 c _ _ _ _ _ _ _ _ _ _ _ _ _ _ _ _ _)) (fun _ => .rfl) .rfl

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := .rfl

/-- After the last point what the accumulators hold is forgotten. -/
theorem hout4 : (dat4 V c).Φ (Fin.last cfg4.N) ⊢ Pipeline.ΦA spec4 c := by
  rw [show (dat4 V c).Φ (Fin.last cfg4.N) = inv4 c _ from rfl, PhiA4_eq]
  exact sep_mono_left (sep_mono_left (sep_mono (exists_intro _) (exists_intro _)))

end Cert.Kernel.Hand

end
-- ==== Proof.KB.Run.lean ====
import proofs.«427324_j33749853012495_3_alg».proof.Proof.Gen.Kernel.Regions
import proofs.«427324_j33749853012495_3_alg».proof.Proof.KB.Reg0
import proofs.«427324_j33749853012495_3_alg».proof.Proof.KB.Reg1
import proofs.«427324_j33749853012495_3_alg».proof.Proof.KB.Reg2
import proofs.«427324_j33749853012495_3_alg».proof.Proof.KB.Reg3
import proofs.«427324_j33749853012495_3_alg».proof.Proof.KB.Reg4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Rounds
open Idealize.ShloMosaic.Pipeline (Dat BodyObligation)

variable {F : FTy → Type} [FloatOps F]

local notation "𝕄" => MT nD τ sig Unit (Elt F) ℕ (UR sig nD τ) ℕ

/-- A valuation read at a core's own references. -/
abbrev rd (W : Dev nD → Valuation τ sig (Elt F)) (c : Dev nD) (b : Ref sig .tc) : Buf (Elt F) ((c : Thread nD τ).loc b) := W c b

section
variable {p : Fin 5} (lf : Pipeline.LaunchFacts (nD := nD) (τ := τ) cfgs p) (V : Dev nD → Valuation τ sig (Elt F))
  (d : (c : Dev nD) → Dat τ (Elt F) Unit ℕ (UR sig nD τ) ℕ (cfgs p) c) (c : Dev nD)

/-- The contents after launch `p` entered at `V`: its arrays as its data `d` has them at the end, every other buffer as on entry. -/
def Wl : Valuation τ sig (Elt F) := Pipeline.withArrays (cfgs p).spec c (V c) fun w => (d c).arrAt w (cfgs p).N

include lf in
theorem Wl_arr (w : Fin (cfgs p).W) : Wl V d c (Proc.devRef .tc (Pipeline.arrRef (cfgs p).spec w)) = (d c).arrAt w (cfgs p).N :=
  Pipeline.withArrays_arr _ lf.win.arr_inj c _ _ w
theorem Wl_of_ne (b : Ref sig .tc) (hb : ∀ w, Pipeline.arrRef (cfgs p).spec w ≠ b) : Wl V d c (Proc.devRef .tc b) = V c (Proc.devRef .tc b) :=
  Pipeline.withArrays_of_ne _ c _ _ b hb

include lf in
/-- A buffer that is no result array of the launch is as on entry: an input array never changes. -/
theorem Wl_in (hA : ∀ w, (d c).A w = rd V c (Pipeline.arrRef (cfgs p).spec w)) (b : Ref sig .tc)
    (hb : ∀ w, Pipeline.arrRef (cfgs p).spec w = b → ((cfgs p).win w).isOut = false) :
    Wl V d c (Proc.devRef .tc b) = V c (Proc.devRef .tc b) := by
  by_cases h : ∃ w, Pipeline.arrRef (cfgs p).spec w = b
  · obtain ⟨w, rfl⟩ := h
    exact (Wl_arr lf V d c w).trans (((d c).arrAt_in w (hb w rfl) _).trans (hA w))
  · exact Wl_of_ne V d c b fun w e => h ⟨w, e⟩
end

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 := rd (W1 m)
def W2 := Wl (p := 0) (W1 m) (dat0 (V1 m))
theorem W2_arr (c : Dev nD) (w : Fin cfg0.W) :
    W2 m c (Proc.devRef .tc (Pipeline.arrRef spec0 w)) = (dat0 (V1 m) c).arrAt w cfg0.N := Wl_arr launch0 _ _ c w
theorem W2_of_ne (c : Dev nD) (b : Ref sig .tc) (hb : ∀ w, Pipeline.arrRef spec0 w ≠ b) :
    W2 m c (Proc.devRef .tc b) = W1 m c (Proc.devRef .tc b) := Wl_of_ne (p := 0) _ _ c b hb
abbrev V2 := rd (W2 m)
abbrev W3 : Dev nD → Valuation τ sig (Elt F) := fun c => StableHlo.after hostOps1 (W2 m c)
abbrev V3 := rd (W3 m)
def W4 := Wl (p := 1) (W3 m) (dat1 (V3 m))
theorem W4_arr (c : Dev nD) (w : Fin cfg1.W) :
    W4 m c (Proc.devRef .tc (Pipeline.arrRef spec1 w)) = (dat1 (V3 m) c).arrAt w cfg1.N := Wl_arr launch1 _ _ c w
theorem W4_of_ne (c : Dev nD) (b : Ref sig .tc) (hb : ∀ w, Pipeline.arrRef spec1 w ≠ b) :
    W4 m c (Proc.devRef .tc b) = W3 m c (Proc.devRef .tc b) := Wl_of_ne (p := 1) _ _ c b hb
abbrev V4 := rd (W4 m)
def W5 := Wl (p := 2) (W4 m) (dat2 (V4 m))
theorem W5_arr (c : Dev nD) (w : Fin cfg2.W) :
    W5 m c (Proc.devRef .tc (Pipeline.arrRef spec2 w)) = (dat2 (V4 m) c).arrAt w cfg2.N := Wl_arr launch2 _ _ c w
theorem W5_of_ne (c : Dev nD) (b : Ref sig .tc) (hb : ∀ w, Pipeline.arrRef spec2 w ≠ b) :
    W5 m c (Proc.devRef .tc b) = W4 m c (Proc.devRef .tc b) := Wl_of_ne (p := 2) _ _ c b hb
abbrev V5 := rd (W5 m)
abbrev W6 : Dev nD → Valuation τ sig (Elt F) := fun c => StableHlo.after hostOps3 (W5 m c)
abbrev V6 := rd (W6 m)
def W7 := Wl (p := 3) (W6 m) (dat3 (V6 m))
theorem W7_arr (c : Dev nD) (w : Fin cfg3.W) :
    W7 m c (Proc.devRef .tc (Pipeline.arrRef spec3 w)) = (dat3 (V6 m) c).arrAt w cfg3.N := Wl_arr launch3 _ _ c w
theorem W7_of_ne (c : Dev nD) (b : Ref sig .tc) (hb : ∀ w, Pipeline.arrRef spec3 w ≠ b) :
    W7 m c (Proc.devRef .tc b) = W6 m c (Proc.devRef .tc b) := Wl_of_ne (p := 3) _ _ c b hb
abbrev V7 := rd (W7 m)
abbrev W8 : Dev nD → Valuation τ sig (Elt F) := fun c => StableHlo.after hostOps4 (W7 m c)
abbrev V8 := rd (W8 m)
def W9 := Wl (p := 4) (W8 m) (dat4 (V8 m))
theorem W9_arr (c : Dev nD) (w : Fin cfg4.W) :
    W9 m c (Proc.devRef .tc (Pipeline.arrRef spec4 w)) = (dat4 (V8 m) c).arrAt w cfg4.N := Wl_arr launch4 _ _ c w
abbrev V9 := rd (W9 m)

/-- A buffer that no host stretch writes and that is no launch's result array ends as launched. -/
theorem W9_kept (c : Dev nD) (b : Ref sig .tc)
    (h : (b ∉ hostOps0_W ∧ b ∉ hostOps1_W ∧ b ∉ hostOps3_W ∧ b ∉ hostOps4_W) ∧
      ∀ p w, Pipeline.arrRef (cfgs p).spec w = b → ((cfgs p).win w).isOut = false) :
    W9 m c (Proc.devRef .tc b) = m ((c : Thread nD τ).loc b) :=
  (Wl_in launch4 _ _ c (A_eq4 _ c) b (h.2 4)).trans <|
  (StableHlo.after_of_writes_sub hostOps4 _ hostOps4_writes h.1.2.2.2).trans <|
  (Wl_in launch3 _ _ c (A_eq3 _ c) b (h.2 3)).trans <|
  (StableHlo.after_of_writes_sub hostOps3 _ hostOps3_writes h.1.2.2.1).trans <|
  (Wl_in launch2 _ _ c (A_eq2 _ c) b (h.2 2)).trans <|
  (Wl_in launch1 _ _ c (A_eq1 _ c) b (h.2 1)).trans <|
  (StableHlo.after_of_writes_sub hostOps1 _ hostOps1_writes h.1.2.1).trans <|
  (Wl_in launch0 _ _ c (A_eq0 _ c) b (h.2 0)).trans <|
  StableHlo.after_of_writes_sub hostOps0 _ hostOps0_writes h.1.1

def pdats : (p : Fin 5) → (c : Dev nD) → Dat τ (Elt F) Unit ℕ (UR sig nD τ) ℕ (cfgs p) c
  | ⟨0, _⟩ => dat0 (V1 m)
  | ⟨1, _⟩ => dat1 (V3 m)
  | ⟨2, _⟩ => dat2 (V4 m)
  | ⟨3, _⟩ => dat3 (V6 m)
  | ⟨4, _⟩ => dat4 (V8 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- Every buffer of a core at `W`, beside `R`. -/
abbrev St (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section
variable (D : (p : Fin 5) → (c : Dev nD) → Dat τ (Elt F) Unit ℕ (UR sig nD τ) ℕ (cfgs p) c)
  {p : Fin 5} (lf : Pipeline.LaunchFacts (nD := nD) (τ := τ) cfgs p) (V : Dev nD → Valuation τ sig (Elt F))
  (hb : ∀ c, BodyObligation (D p c) (defs₀ (F := F)) Variants.none () Set.univ)
  (hq : ∀ c w, (D p c).q w = fullShare := by intros; rfl) (hz : ∀ c t, (D p c).owed t = 0 := by intros; rfl)
  (hr : ∀ c, (D p c).recorded 0 = Set.univ := by intros; rfl)
  (hA : ∀ c w, (D p c).A w = rd V c (Pipeline.arrRef (cfgs p).spec w) := by intros; rfl)
  (hi : ∀ c, Pipeline.ΦA (cfgs p).spec c ⊢ (D p c).Φ 0 := by intros; rfl)
  (hx : ∀ c, (D p c).Φ (Fin.last _) ⊢ Pipeline.ΦA (cfgs p).spec c := by intros; rfl)

/-- Launch `p` as an item of the program: entered with every buffer at `V`, left with them at `Wl V (D p)`. -/
def regOf : Pipeline.RegionSeg (pcfgs (F := F)) adm D () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre := St V
  post := St (Wl V (D p))
  X c := iprop(∃ r, prngReg c r)
  Y c := iprop(∃ r, prngReg c r)
  Z c := Pipeline.unscopedRest (cfgs p).spec c (rd V c)
  hentry c := by
    have hsplit := Pipeline.arrays_of_unscopedBufs (p := p) (pcfgs (F := F)) adm D lf.win lf.arr_whole c
      ((D p c).share_full (hq c)) _ (hA c)
    rw [Pipeline.unscopedBufs_held] at hsplit
    iintro ⟨⟨Hub, Hp, HO⟩, -, -⟩
    ihave ⟨Ha, Hrest⟩ := hsplit $$ Hub
    imodintro
    iframe Ha Hp Hrest
    isplitr; · unfold Pipeline.prefHeld; erw [BI.bigSep_empty]; iempintro
    unfold Pipeline.Dat.owesAt Pipeline.owesWithin; rw [hz c]
    icases HO with ⟨%W, HO⟩; iexists W; iframe HO; ipureintro; exact fun _ _ => Or.inl (hr c ▸ Set.mem_univ _)
  hin c := ((BI.sep_mono_r ((BI.sep_mono_l BI.affine).trans BI.emp_sep_elim)).trans BI.sep_comm).trans (hi c)
  hout c := by rw [Pipeline.ownSems0_none]; exact (hx c).trans (BI.sep_comm.trans (BI.sep_mono_r BI.emp_sep_intro))
  hexit c := by
    have hjoin := Pipeline.unscopedBufs_of_arrays (p := p) (pcfgs (F := F)) adm
      lf.win lf.arr_whole c D ((D p c).share_full (hq c)) _ (rd (Wl V (D p)) c) _
      (fun w => (Wl_arr lf V (D p) c w).symm)
      fun b hb => Wl_of_ne V (D p) c b fun w e => hb (Finset.mem_image.mpr ⟨w, Finset.mem_univ _, e⟩)
    rw [Pipeline.unscopedBufs_held] at hjoin
    unfold Pipeline.Dat.owesAt Pipeline.owesWithin; rw [hz c]
    iintro ⟨Ha, ⟨%W, -, HO⟩, HY, Hrest⟩
    imodintro
    isplitl [Ha Hrest]
    · iapply hjoin; iframe
    isplitl [HY]; · iexact HY
    iexists W; iexact HO
end

abbrev segs : List (Pipeline.Seg (pcfgs (F := F)) adm (pdats m) () defs₀ 𝒱₀ L lv) :=
  [ .host (hseg hostOps0 hostOps0_sub hostOps0_fresh (W0 m)),
    .region (regOf (pdats m) launch0 (W1 m) (body_obligation0 (V1 m))),
    .host (hseg hostOps1 hostOps1_sub hostOps1_fresh (W2 m)),
    .region (regOf (pdats m) launch1 (W3 m) (body_obligation1 (V3 m))),
    .region (regOf (pdats m) launch2 (W4 m) (body_obligation2 (V4 m))),
    .host (hseg hostOps3 hostOps3_sub hostOps3_fresh (W5 m)),
    .region (regOf (pdats m) launch3 (W6 m) (body_obligation3 (V6 m))),
    .host (hseg hostOps4 hostOps4_sub hostOps4_fresh (W7 m)),
    .region (regOf (pdats m) launch4 (W8 m) (body_obligation4 (V8 m)) (hi := hin4 _) (hx := hout4 _)) ]

/-- The program's items chain from the launch memory to `W9`, so a run ends with every buffer there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [(main_chain c).trans (by chain_rfl : _ = Pipeline.Seg.run (segs m))])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := St (W0 m))
    (Tₙ := fun c => iprop(StableHlo.held (c : Thread nD τ) (Pipeline.ucRefs τ sig) (W9 m c) ∗ ∃ r, prngReg c r))
    (hch := by refine ⟨?_, ?_, ?_, ?_, ?_, ?_, ?_, ?_, ?_, fun _ => BI.sep_assoc'⟩ <;> exact fun _ => .rfl)
    (hinit := by
      refine Pipeline.initEach L lv fun c => ?_
      erw [Pipeline.unscopedBufs_held c (W0 m c)]
      iintro ⟨⟨Hh, -, HO, -, Hp, -⟩, -⟩
      imodintro
      unfold St; iframe Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      iframe)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have k (b : Ref sig .tc) hu hk : _ = m ((c.tc : Thread nD τ).loc b) := (h c _ (mem_uc b hu)).trans (W9_kept m c b hk)
    ⟨k main_arg0 (by decide) (by decide), k main_arg1 (by decide) (by decide), k main_arg2 (by decide) (by decide),
     k main_arg3 (by decide) (by decide), k main_arg4 (by decide) (by decide), k main_arg5 (by decide) (by decide),
     k main_arg6 (by decide) (by decide)⟩) (run_all m ρ)

end Cert.Kernel.Hand

end
-- ==== Proof.KI.Reg0.lean ====
import proofs.«427324_j33749853012495_3_alg».proof.Proof.Gen.KernelIdeal.Launch
import proofs.«427324_j33749853012495_3_alg».proof.Proof.Gen.KernelIdeal.Skeleton
import proofs.«427324_j33749853012495_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev tileRect0 : Rect S2000x128 := Rect.unit (s := S2000x128) ![0, 0] S2000x128.size inb_S2000x128_S2000x128_0_0
abbrev weightRect0 : Rect S128x128 := Rect.unit (s := S128x128) ![0, 0] S128x128.size inb_S128x128_S128x128_0_0
abbrev factorRect0 : Rect S2000x1 := Rect.unit (s := S2000x1) ![0, 0] S2000x1.size inb_S2000x1_S2000x1_0_0

def out0_3 (x0 : Vec F S2000x128 .f32) (x1 : Vec F S128x128 .f32) (x2 : Vec F S2000x1 .f32) : Vec F S2000x128 .f32 :=
  View.canon [⟨tileRect0, k0_pay1 (View.ld x0 tileRect0) (View.ld x1 weightRect0) (View.ld x2 factorRect0)⟩]

theorem cover0_3 (p0 : Vec F S2000x128 .f32) (y : S2000x128.Idx) :
    ∃ pc ∈ ([⟨tileRect0, p0⟩] : List (View.Piece (Elt F) S2000x128 .f32)), y ∈ pc.1.set :=
  View.cover_of_tiled [⟨tileRect0, p0⟩] S2000x128.size (by rfl) y

/-- The body's triple: it runs to its end, the inputs as found and the output at one store of the body's value on them. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .f32) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_matmul_kernel i arg1 harg1 arg2 harg2 arg3 harg3 arg4 harg4) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«427324_j33749853012495_3_alg».proof.Proof.Gen.KernelIdeal.Launch
import proofs.«427324_j33749853012495_3_alg».proof.Proof.Gen.KernelIdeal.Skeleton
import proofs.«427324_j33749853012495_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev tileRect1 : Rect S2000x128 := Rect.unit (s := S2000x128) ![0, 0] S2000x128.size inb_S2000x128_S2000x128_0_0
abbrev factorRect1 : Rect S2000x1 := Rect.unit (s := S2000x1) ![0, 0] S2000x1.size inb_S2000x1_S2000x1_0_0
abbrev biasRect1 : Rect S1x128 := Rect.unit (s := S1x128) ![0, 0] S1x128.size inb_S1x128_S1x128_0_0

def out1_4 (x0 : Vec F S2000x128 .f32) (x1 : Vec F S2000x128 .f32) (x2 : Vec F S2000x1 .f32) (x3 : Vec F S1x128 .f32) : Vec F S2000x128 .f32 :=
  View.canon [⟨tileRect1, k1_pay1 (View.ld x2 factorRect1) (View.ld x0 tileRect1) (View.ld x1 tileRect1) (View.ld x3 biasRect1)⟩]

theorem cover1_4 (p0 : Vec F S2000x128 .f32) (y : S2000x128.Idx) :
    ∃ pc ∈ ([⟨tileRect1, p0⟩] : List (View.Piece (Elt F) S2000x128 .f32)), y ∈ pc.1.set :=
  View.cover_of_tiled [⟨tileRect1, p0⟩] S2000x128.size (by rfl) y

/-- The body's triple: it runs to its end, the inputs as found and the output at one store of the body's value on them. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__epilogue_kernel i arg1 harg1 arg2 harg2 arg3 harg3 arg4 harg4 arg5 harg5) K := by
  simp only [cc1__epilogue_kernel_eq_skeleton]; unfold cc1__epilogue_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«427324_j33749853012495_3_alg».proof.Proof.Gen.KernelIdeal.Launch
import proofs.«427324_j33749853012495_3_alg».proof.Proof.Gen.KernelIdeal.Skeleton
import proofs.«427324_j33749853012495_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev tileRect2 : Rect S2000x128 := Rect.unit (s := S2000x128) ![0, 0] S2000x128.size inb_S2000x128_S2000x128_0_0
abbrev weightRect2 : Rect S128x128 := Rect.unit (s := S128x128) ![0, 0] S128x128.size inb_S128x128_S128x128_0_0
abbrev factorRect2 : Rect S2000x1 := Rect.unit (s := S2000x1) ![0, 0] S2000x1.size inb_S2000x1_S2000x1_0_0

def out2_3 (x0 : Vec F S2000x128 .f32) (x1 : Vec F S128x128 .f32) (x2 : Vec F S2000x1 .f32) : Vec F S2000x128 .f32 :=
  View.canon [⟨tileRect2, k2_pay1 (View.ld x0 tileRect2) (View.ld x1 weightRect2) (View.ld x2 factorRect2)⟩]

theorem cover2_3 (p0 : Vec F S2000x128 .f32) (y : S2000x128.Idx) :
    ∃ pc ∈ ([⟨tileRect2, p0⟩] : List (View.Piece (Elt F) S2000x128 .f32)), y ∈ pc.1.set :=
  View.cover_of_tiled [⟨tileRect2, p0⟩] S2000x128.size (by rfl) y

/-- The body's triple: it runs to its end, the inputs as found and the output at one store of the body's value on them. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .f32) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gcn_matmul_kernel i arg1 harg1 arg2 harg2 arg3 harg3 arg4 harg4) K := by
  simp only [cc2__gcn_matmul_kernel_eq_skeleton]; unfold cc2__gcn_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl [H3]; · iexists _; iexact H3
  iintro ⟨H0, H1, H2, H3⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«427324_j33749853012495_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The fourth launch runs the second launch's kernel function: the two printed bodies are the same term. -/
theorem cc3_eq_cc1 : cc3__epilogue_kernel (F := F) = cc1__epilogue_kernel (F := F) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_cc1]
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk3 V c 0 t) (iblk3 V c 1 t) (iblk3 V c 2 t) (iblk3 V c 3 t) _)
  iframe
  isplitl [H4]; · iexists _; iexact H4
  iintro ⟨H0, H1, H2, H3, H4⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4Runs.lean ====
import proofs.«427324_j33749853012495_3_alg».proof.Proof.Gen.KernelIdeal.Launch
import proofs.«427324_j33749853012495_3_alg».proof.Proof.Gen.KernelIdeal.Skeleton
import proofs.«427324_j33749853012495_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev VO4_2 : View sig .tc .vmem S64x128 .f32 := (Memref.whole cc4_stg2_0 : Memref sig .tc .vmem S64x128 .f32).view
abbrev ms4_0 (t : Fin cfg4.N) : Memref sig .tc .vmem S5000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x128 .f32 := win4_2.stage (cfg4.slots t 2)
abbrev hs4_2 (t : Fin cfg4.N) : (ms4_2 t).IsWhole := hstage4_2 ((cfg4.slots t 2).cast nbuf4_2)
abbrev scM4_0 : Memref sig .tc .vmem S64x128 .f32 := Memref.whole cc4_scratch0
abbrev scM4_1 : Memref sig .tc .vmem S64x1 .f32 := Memref.whole cc4_scratch1
abbrev VS4_0 : View sig .tc .vmem S64x128 .f32 := scM4_0.view
abbrev VS4_1 : View sig .tc .vmem S64x1 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KI.Reg4RunA.lean ====
import proofs.«427324_j33749853012495_3_alg».proof.Proof.KI.Reg4Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first point's run: the pieces it leaves in the result buffer (none) and in the two accumulators, with its triple. -/
def kernelRun4_A (c : Dev nD) (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : cond4_0 i) (hc1 : ¬cond4_1 i)
    (x0 : Vec F S5000x1 .i32) (x1 : Vec F S5000x128 .f32) :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.Reg4RunB.lean ====
import proofs.«427324_j33749853012495_3_alg».proof.Proof.KI.Reg4RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A middle point's run, the accumulators entering at `xs0`, `xs1`: the pieces it leaves, with its triple. -/
def kernelRun4_B (c : Dev nD) (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond4_0 i) (hc1 : ¬cond4_1 i)
    (x0 : Vec F S5000x1 .i32) (x1 : Vec F S5000x128 .f32) (xs0 : Vec F S64x128 .f32) (xs1 : Vec F S64x1 .f32) :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.Reg4RunC.lean ====
import proofs.«427324_j33749853012495_3_alg».proof.Proof.KI.Reg4RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The last point's run, the accumulators entering at `xs0`, `xs1`: the pieces it leaves in all three buffers, with its triple. -/
def kernelRun4_C (c : Dev nD) (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (hc0 : ¬cond4_0 i) (hc1 : cond4_1 i)
    (x0 : Vec F S5000x1 .i32) (x1 : Vec F S5000x128 .f32) (xs0 : Vec F S64x128 .f32) (xs1 : Vec F S64x1 .f32) :
    Σ' (L2 : List (View.Piece (Elt F) S64x128 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨?_, ?_, ?_, fun E K => ?run⟩
  case run =>
    simp only [cc4__pool_kernel_eq_skeleton]; unfold cc4__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Cert.KernelIdeal.Hand

end
-- ==== Proof.KI.Reg4.lean ====
import proofs.«427324_j33749853012495_3_alg».proof.Proof.KI.Reg4RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD)

section Cases

variable (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole)

section A

variable (hc0 : cond4_0 i) (hc1 : ¬cond4_1 i) (x0 : Vec F S5000x1 .i32) (x1 : Vec F S5000x128 .f32)

def out4_A_2 : Vec F S64x128 .f32 :=
  VO4_2.read (Elt F) (VO4_2.writes (Elt F) VO4_2.junk (kernelRun4_A c i arg1 harg1 arg2 harg2 arg3 harg3 arg4 harg4 arg5 harg5 hc0 hc1 x0 x1).1)

theorem scover4_A_0 (y : S64x128.Idx) : ∃ pc ∈ (kernelRun4_A c i arg1 harg1 arg2 harg2 arg3 harg3 arg4 harg4 arg5 harg5 hc0 hc1 x0 x1).2.1, y ∈ pc.1.set :=
  View.cover_of_tiledL _ S64x128.size (by sl_kernel_rfl) y

def sout4_A_0 : Vec F S64x128 .f32 :=
  VS4_0.read (Elt F) (VS4_0.writes (Elt F) VS4_0.junk (kernelRun4_A c i arg1 harg1 arg2 harg2 arg3 harg3 arg4 harg4 arg5 harg5 hc0 hc1 x0 x1).2.1)

theorem scover4_A_1 (y : S64x1.Idx) : ∃ pc ∈ (kernelRun4_A c i arg1 harg1 arg2 harg2 arg3 harg3 arg4 harg4 arg5 harg5 hc0 hc1 x0 x1).2.2.1, y ∈ pc.1.set :=
  View.cover_of_tiledL _ S64x1.size (by sl_kernel_rfl) y

def sout4_A_1 : Vec F S64x1 .f32 :=
  VS4_1.read (Elt F) (VS4_1.writes (Elt F) VS4_1.junk (kernelRun4_A c i arg1 harg1 arg2 harg2 arg3 harg3 arg4 harg4 arg5 harg5 hc0 hc1 x0 x1).2.2.1)

end A

section B

variable (hc0 : ¬cond4_0 i) (hc1 : ¬cond4_1 i) (x0 : Vec F S5000x1 .i32) (x1 : Vec F S5000x128 .f32) (xs0 : Vec F S64x128 .f32) (xs1 : Vec F S64x1 .f32)

def out4_B_2 : Vec F S64x128 .f32 :=
  VO4_2.read (Elt F) (VO4_2.writes (Elt F) VO4_2.junk (kernelRun4_B c i arg1 harg1 arg2 harg2 arg3 harg3 arg4 harg4 arg5 harg5 hc0 hc1 x0 x1 xs0 xs1).1)

theorem scover4_B_0 (y : S64x128.Idx) : ∃ pc ∈ (kernelRun4_B c i arg1 harg1 arg2 harg2 arg3 harg3 arg4 harg4 arg5 harg5 hc0 hc1 x0 x1 xs0 xs1).2.1, y ∈ pc.1.set :=
  View.cover_of_tiledL _ S64x128.size (by sl_kernel_rfl) y

def sout4_B_0 : Vec F S64x128 .f32 :=
  VS4_0.read (Elt F) (VS4_0.writes (Elt F) VS4_0.junk (kernelRun4_B c i arg1 harg1 arg2 harg2 arg3 harg3 arg4 harg4 arg5 harg5 hc0 hc1 x0 x1 xs0 xs1).2.1)

theorem scover4_B_1 (y : S64x1.Idx) : ∃ pc ∈ (kernelRun4_B c i arg1 harg1 arg2 harg2 arg3 harg3 arg4 harg4 arg5 harg5 hc0 hc1 x0 x1 xs0 xs1).2.2.1, y ∈ pc.1.set :=
  View.cover_of_tiledL _ S64x1.size (by sl_kernel_rfl) y

def sout4_B_1 : Vec F S64x1 .f32 :=
  VS4_1.read (Elt F) (VS4_1.writes (Elt F) VS4_1.junk (kernelRun4_B c i arg1 harg1 arg2 harg2 arg3 harg3 arg4 harg4 arg5 harg5 hc0 hc1 x0 x1 xs0 xs1).2.2.1)

end B

section C

variable (hc0 : ¬cond4_0 i) (hc1 : cond4_1 i) (x0 : Vec F S5000x1 .i32) (x1 : Vec F S5000x128 .f32) (xs0 : Vec F S64x128 .f32) (xs1 : Vec F S64x1 .f32)

theorem cover4_C_2 (y : S64x128.Idx) : ∃ pc ∈ (kernelRun4_C c i arg1 harg1 arg2 harg2 arg3 harg3 arg4 harg4 arg5 harg5 hc0 hc1 x0 x1 xs0 xs1).1, y ∈ pc.1.set :=
  View.cover_of_tiledL _ S64x128.size (by sl_kernel_rfl) y

def out4_C_2 : Vec F S64x128 .f32 :=
  VO4_2.read (Elt F) (VO4_2.writes (Elt F) VO4_2.junk (kernelRun4_C c i arg1 harg1 arg2 harg2 arg3 harg3 arg4 harg4 arg5 harg5 hc0 hc1 x0 x1 xs0 xs1).1)

theorem scover4_C_0 (y : S64x128.Idx) : ∃ pc ∈ (kernelRun4_C c i arg1 harg1 arg2 harg2 arg3 harg3 arg4 harg4 arg5 harg5 hc0 hc1 x0 x1 xs0 xs1).2.1, y ∈ pc.1.set :=
  View.cover_of_tiledL _ S64x128.size (by sl_kernel_rfl) y

def sout4_C_0 : Vec F S64x128 .f32 :=
  VS4_0.read (Elt F) (VS4_0.writes (Elt F) VS4_0.junk (kernelRun4_C c i arg1 harg1 arg2 harg2 arg3 harg3 arg4 harg4 arg5 harg5 hc0 hc1 x0 x1 xs0 xs1).2.1)

theorem scover4_C_1 (y : S64x1.Idx) : ∃ pc ∈ (kernelRun4_C c i arg1 harg1 arg2 harg2 arg3 harg3 arg4 harg4 arg5 harg5 hc0 hc1 x0 x1 xs0 xs1).2.2.1, y ∈ pc.1.set :=
  View.cover_of_tiledL _ S64x1.size (by sl_kernel_rfl) y

def sout4_C_1 : Vec F S64x1 .f32 :=
  VS4_1.read (Elt F) (VS4_1.writes (Elt F) VS4_1.junk (kernelRun4_C c i arg1 harg1 arg2 harg2 arg3 harg3 arg4 harg4 arg5 harg5 hc0 hc1 x0 x1 xs0 xs1).2.2.1)

end C

end Cases

variable (t : Fin cfg4.N)

/-- A quantity of one case of the body, taken at grid point `t`: at the point's memrefs, conditions and input blocks. -/
noncomputable def atPt4 {α : Type} {P0 P1 : grid4.Coords → Prop}
    (f : (c : Dev nD) → (i : grid4.Coords) → (arg1 : Memref sig .tc .vmem S5000x1 .i32) → arg1.IsWhole → (arg2 : Memref sig .tc .vmem S5000x128 .f32) → arg2.IsWhole → (arg3 : Memref sig .tc .vmem S64x128 .f32) → arg3.IsWhole → (arg4 : Memref sig .tc .vmem S64x128 .f32) → arg4.IsWhole → (arg5 : Memref sig .tc .vmem S64x1 .f32) → arg5.IsWhole → P0 i → P1 i → Vec F S5000x1 .i32 → Vec F S5000x128 .f32 → α)
    (h0 : P0 (grid4.coords t)) (h1 : P1 (grid4.coords t)) : α :=
  f c (grid4.coords t) (ms4_0 t) (hs4_0 t) (ms4_1 t) (hs4_1 t) (ms4_2 t) (hs4_2 t) scM4_0 (Memref.isWhole_whole _) scM4_1 (Memref.isWhole_whole _) h0 h1 (iblk4 V c 0 t) (iblk4 V c 1 t)

/-- What each case leaves at point `t` in the result buffer and the two accumulators; a later point is entered with the accumulators at `xs`. -/
def outs4_A (h0 : cond4_0 (grid4.coords t)) (h1 : ¬cond4_1 (grid4.coords t)) :=
  (atPt4 V c t out4_A_2 h0 h1, atPt4 V c t sout4_A_0 h0 h1, atPt4 V c t sout4_A_1 h0 h1)
def outs4_B (h0 : ¬cond4_0 (grid4.coords t)) (h1 : ¬cond4_1 (grid4.coords t)) (xs : Vec F S64x128 .f32 × Vec F S64x1 .f32) :=
  (atPt4 V c t out4_B_2 h0 h1 xs.1 xs.2, atPt4 V c t sout4_B_0 h0 h1 xs.1 xs.2, atPt4 V c t sout4_B_1 h0 h1 xs.1 xs.2)
def outs4_C (h0 : ¬cond4_0 (grid4.coords t)) (h1 : cond4_1 (grid4.coords t)) (xs : Vec F S64x128 .f32 × Vec F S64x1 .f32) :=
  (atPt4 V c t out4_C_2 h0 h1 xs.1 xs.2, atPt4 V c t sout4_C_0 h0 h1 xs.1 xs.2, atPt4 V c t sout4_C_1 h0 h1 xs.1 xs.2)

/-- After position `n`: the case the closed forms select, entered with what position `n - 1` left in the accumulators. -/
def outsAt4 : (n : ℕ) → n < cfg4.N → Vec F S64x128 .f32 × Vec F S64x128 .f32 × Vec F S64x1 .f32
  | 0, hn => outs4_A V c ⟨0, hn⟩ ((hcond4_0 _).mpr (Nat.zero_mod _)) (mt (hcond4_1 _).mp (by decide : ¬0 % 20 = 19))
  | n + 1, hn =>
    have h0 := mt (hcond4_0 ⟨n + 1, hn⟩).mp (show ¬(n + 1) % 20 = 0 by have := lt_of_lt_of_eq hn N_4; omega)
    if h1 : (n + 1) % 20 = 19 then outs4_C V c ⟨n + 1, hn⟩ h0 ((hcond4_1 _).mpr h1) (outsAt4 n (Nat.lt_of_succ_lt hn)).2
    else outs4_B V c ⟨n + 1, hn⟩ h0 (mt (hcond4_1 _).mp h1) (outsAt4 n (Nat.lt_of_succ_lt hn)).2

theorem outsAt4_A (h0 : t.val % 20 = 0) (h1 : ¬t.val % 20 = 19) :
    outsAt4 V c t.val t.isLt = outs4_A V c t ((hcond4_0 t).mpr h0) (mt (hcond4_1 t).mp h1) := by
  obtain ⟨_ | n, hn⟩ := t
  · rfl
  · exact absurd h0 (show ¬(n + 1) % 20 = 0 by have := lt_of_lt_of_eq hn N_4; omega)

theorem outsAt4_B (h0 : ¬t.val % 20 = 0) (h1 : ¬t.val % 20 = 19) :
    outsAt4 V c t.val t.isLt = outs4_B V c t (mt (hcond4_0 t).mp h0) (mt (hcond4_1 t).mp h1) (outsAt4 V c (t.val - 1) (Nat.lt_of_le_of_lt (Nat.sub_le _ _) t.isLt)).2 := by
  obtain ⟨_ | n, hn⟩ := t
  · exact absurd (Nat.zero_mod _) h0
  · exact (dif_neg h1).trans rfl

theorem outsAt4_C (h0 : ¬t.val % 20 = 0) (h1 : t.val % 20 = 19) :
    outsAt4 V c t.val t.isLt = outs4_C V c t (mt (hcond4_0 t).mp h0) ((hcond4_1 t).mpr h1) (outsAt4 V c (t.val - 1) (Nat.lt_of_le_of_lt (Nat.sub_le _ _) t.isLt)).2 := by
  obtain ⟨_ | n, hn⟩ := t
  · exact absurd (Nat.zero_mod _) h0
  · exact (dif_pos h1).trans rfl

/-- The launch's invariant with the two accumulators at `xs`. -/
def inv4 (xs : Vec F S64x128 .f32 × Vec F S64x1 .f32) : sProp 𝕄 :=
  iprop(iprop(iprop(owns (c : Thread nD τ) scM4_0 fullShare xs.1 ∗ owns (c : Thread nD τ) scM4_1 fullShare xs.2)
    ∗ Pipeline.scopedRestBut spec4 c [cc4_scratch0, cc4_scratch1]) ∗ (∃ r, prngReg c r))

/-- Before the first point the launch's invariant, afterwards the accumulators at what the point before left. -/
def PhiS4 : (n : ℕ) → n ≤ cfg4.N → sProp 𝕄
  | 0, _ => Pipeline.ΦA spec4 c
  | n + 1, hn => inv4 c (outsAt4 V c n hn).2

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (w : Fin cfg4.W) : (dat4 V c).A w = V c (Pipeline.arrRef spec4 w) := rfl
theorem after4_0 : (dat4 V c).after 0 t = iblk4 V c 0 t := rfl
theorem after4_1 : (dat4 V c).after 1 t = iblk4 V c 1 t := rfl
theorem after4_2 : (dat4 V c).after 2 t = (outsAt4 V c t.val t.isLt).1 := rfl

theorem Phi4_zero (hz : t.val = 0) : (dat4 V c).Φ t.castSucc = Pipeline.ΦA spec4 c := by
  obtain ⟨_ | n, hn⟩ := t
  · rfl
  · exact absurd hz (Nat.succ_ne_zero n)

theorem Phi4_pos (hz : t.val ≠ 0) :
    (dat4 V c).Φ t.castSucc = inv4 c (outsAt4 V c (t.val - 1) (Nat.lt_of_le_of_lt (Nat.sub_le _ _) t.isLt)).2 := by
  obtain ⟨_ | n, hn⟩ := t
  · exact absurd rfl hz
  · rfl

theorem leaves4_live (w : Fin cfg4.W) (h : cfg4.idle w (cfg4.grid.coords t) = false) :
    (dat4 V c).leavesExact w t = owns (c : Thread nD τ) ((cfg4.win w).stage (cfg4.slots t w)) fullShare ((dat4 V c).after w t) := by
  unfold Dat.leavesExact; rw [h]

/-- A buffer held at pieces that cover it is held at those pieces read back, over anything. -/
theorem owns_of_cover {s : Shape} {e : EltTy} (M : Memref sig .tc .vmem s e) {κ' : Kind} {sp' : Space} (v' : View sig κ' sp' s e) {L : List (View.Piece (Elt F) s e)}
    (h : ∀ y, ∃ pc ∈ L, y ∈ pc.1.set) :
    iprop(∃ f, M.view.loc (c : Thread nD τ) ↦[M.view.set]{fullShare} M.view.writes (Elt F) f L)
      ⊢ (owns (c : Thread nD τ) M fullShare (v'.read (Elt F) (v'.writes (Elt F) v'.junk L)) : sProp 𝕄) := by
  iintro ⟨%f, H⟩; unfold owns; iexists _; isplitr
  swap; · iexact H
  ipureintro; exact View.read_writes_of_cover _ _ _ _ _ h

/-- Around one run of the body: the invariant lends it the accumulators and takes them back as the run leaves them; all else passes through. -/
theorem frame4 {wpp : (PUnit → sProp 𝕄) → sProp 𝕄} {D0 D1 D2 : Type} {I0 I1 A0 A1 S0 S1 S0' S1' R G O Q : sProp 𝕄} {W0 W W' : D2 → sProp 𝕄}
    (run : ∀ d K, iprop(I0 ∗ I1 ∗ W d ∗ A0 ∗ A1 ∗ (iprop(I0 ∗ I1 ∗ W' d ∗ S0 ∗ S1) -∗ K ⟨⟩)) ⊢ wpp K)
    (h0 : S0 ⊢ S0') (h1 : S1 ⊢ S1') (hW0 : ∀ d, W0 d ⊢ W d) (hW : (∃ d, W' d) ⊢ Q) :
    iprop(iprop(iprop(iprop(A0 ∗ A1) ∗ R) ∗ G) ∗ O ∗ (∃ _ : D0, I0) ∗ (∃ _ : D1, I1) ∗ ∃ d, W0 d)
      ⊢ wpp fun _ => iprop(iprop(iprop(iprop(S0' ∗ S1') ∗ R) ∗ G) ∗ O ∗ I0 ∗ I1 ∗ Q) := by
  iintro ⟨⟨⟨⟨HS0, HS1⟩, Hr⟩, Hg⟩, Ho, ⟨%d0, H0⟩, ⟨%d1, H1⟩, ⟨%d2, H2⟩⟩
  iapply run d2
  iframe H0 H1 HS0 HS1
  isplitl [H2]; · iapply hW0 d2; iexact H2
  iintro ⟨H0, H1, H2, HS0, HS1⟩
  iframe Hr Hg Ho H0 H1
  isplitl [HS0 HS1]
  · isplitl [HS0]
    · iapply h0; iexact HS0
    · iapply h1; iexact HS1
  iapply hW; iexists d2; iexact H2

/-- The body at any point: the closed forms say which case the point is in, and that case's run sits in the frame. -/
theorem sound_body4 :
    iprop((dat4 V c).Φ t.castSucc ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d)))
    ⊢ wp frame (wpE (defs₀ (F := F)) Variants.none c none) Set.univ (bodyAt4 t) fun _ =>
      iprop(inv4 c (outsAt4 V c t.val t.isLt).2 ∗ (dat4 V c).owesAt () t.castSucc
        ∗ (dat4 V c).leavesExact 0 t ∗ (dat4 V c).leavesExact 1 t ∗ (dat4 V c).leavesExact 2 t) := by
  unfold bodyAt4 ms4_0 ms4_1 ms4_2
  simp only [show ∀ t d, (dat4 V c).before 0 t d = iblk4 V c 0 t from (dat4 V c).before_in_eq_fetched 0 rfl (fun _ => rfl) (fun _ _ _ => rfl) (fun _ => rfl),
    show ∀ t d, (dat4 V c).before 1 t d = iblk4 V c 1 t from (dat4 V c).before_in_eq_fetched 1 rfl (fun _ => rfl) (fun _ _ _ => rfl) (fun _ => rfl)]
  rw [leaves4_live V c t 0 (liveAt4_0 t), after4_0, leaves4_live V c t 1 (liveAt4_1 t), after4_1]
  have hN : t.val < 20 := lt_of_lt_of_eq t.isLt N_4
  by_cases h0 : t.val % 20 = 0
  · have h1 : ¬t.val % 20 = 19 := by omega
    have H0 := (hcond4_0 t).mpr h0
    have H1 := mt (hcond4_1 t).mp h1
    rw [Dat.leavesExact_idle (dat4 V c) 2 t (idleAt4_2_A t H0 H1) (noFlush4_2_A t H0 H1), outsAt4_A V c t h0 h1,
      Phi4_zero V c t (by omega), PhiA4_eq]
    unfold inv4 outs4_A atPt4 sout4_A_0 sout4_A_1; dsimp only
    exact frame4 (fun _ K => (kernelRun4_A c (grid4.coords t) _ _ _ _ _ _ _ _ _ _ H0 H1 (iblk4 V c 0 t) (iblk4 V c 1 t)).2.2.2 _ _ K)
      (owns_of_cover c _ _ (scover4_A_0 c _ _ _ _ _ _ _ _ _ _ _ _ _ _ _)) (owns_of_cover c _ _ (scover4_A_1 c _ _ _ _ _ _ _ _ _ _ _ _ _ _ _)) (fun _ => .rfl) .rfl
  · have H0 := mt (hcond4_0 t).mp h0
    rw [Phi4_pos V c t (by omega)]
    by_cases h1 : t.val % 20 = 19
    · have H1 := (hcond4_1 t).mpr h1
      rw [leaves4_live V c t 2 (liveAt4_2_C t H0 H1), after4_2, outsAt4_C V c t h0 h1]
      unfold inv4 outs4_C atPt4 out4_C_2 sout4_C_0 sout4_C_1; dsimp only
      exact frame4 (fun _ K => (kernelRun4_C c (grid4.coords t) _ _ _ _ _ _ _ _ _ _ H0 H1 (iblk4 V c 0 t) (iblk4 V c 1 t) _ _).2.2.2 _ K)
        (owns_of_cover c _ _ (scover4_C_0 c _ _ _ _ _ _ _ _ _ _ _ _ _ _ _ _ _)) (owns_of_cover c _ _ (scover4_C_1 c _ _ _ _ _ _ _ _ _ _ _ _ _ _ _ _ _)) (fun _ => exists_intro _) (exists_elim fun _ => owns_of_cover c _ _ (cover4_C_2 c _ _ _ _ _ _ _ _ _ _ _ _ _ _ _ _ _))
    · have H1 := mt (hcond4_1 t).mp h1
      rw [Dat.leavesExact_idle (dat4 V c) 2 t (idleAt4_2_B t H0 H1) (noFlush4_2_B t H0 H1), outsAt4_B V c t h0 h1]
      unfold inv4 outs4_B atPt4 sout4_B_0 sout4_B_1; dsimp only
      exact frame4 (fun _ K => (kernelRun4_B c (grid4.coords t) _ _ _ _ _ _ _ _ _ _ H0 H1 (iblk4 V c 0 t) (iblk4 V c 1 t) _ _).2.2.2 _ _ K)
        (owns_of_cover c _ _ (scover4_B_0 c _ _ _ _ _ _ _ _ _ _ _ _ _ _ _ _ _)) (owns_of_cover c _ _ (scover4_B_1 c _ _ _ _ _ _ _ _ _ _ _ _ _ _ _ _ _)) (fun _ => .rfl) .rfl

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := .rfl

/-- After the last point what the accumulators hold is forgotten. -/
theorem hout4 : (dat4 V c).Φ (Fin.last cfg4.N) ⊢ Pipeline.ΦA spec4 c := by
  rw [show (dat4 V c).Φ (Fin.last cfg4.N) = inv4 c _ from rfl, PhiA4_eq]
  exact sep_mono_left (sep_mono_left (sep_mono (exists_intro _) (exists_intro _)))

end Cert.KernelIdeal.Hand

end
-- ==== Proof.KI.Run.lean ====
import proofs.«427324_j33749853012495_3_alg».proof.Proof.Gen.KernelIdeal.Regions
import proofs.«427324_j33749853012495_3_alg».proof.Proof.KI.Reg0
import proofs.«427324_j33749853012495_3_alg».proof.Proof.KI.Reg1
import proofs.«427324_j33749853012495_3_alg».proof.Proof.KI.Reg2
import proofs.«427324_j33749853012495_3_alg».proof.Proof.KI.Reg3
import proofs.«427324_j33749853012495_3_alg».proof.Proof.KI.Reg4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Rounds
open Idealize.ShloMosaic.Pipeline (Dat BodyObligation)

variable {F : FTy → Type} [FloatOps F]

local notation "𝕄" => MT nD τ sig Unit (Elt F) ℕ (UR sig nD τ) ℕ

/-- A valuation read at a core's own references. -/
abbrev rd (W : Dev nD → Valuation τ sig (Elt F)) (c : Dev nD) (b : Ref sig .tc) : Buf (Elt F) ((c : Thread nD τ).loc b) := W c b

section
variable {p : Fin 5} (lf : Pipeline.LaunchFacts (nD := nD) (τ := τ) cfgs p) (V : Dev nD → Valuation τ sig (Elt F))
  (d : (c : Dev nD) → Dat τ (Elt F) Unit ℕ (UR sig nD τ) ℕ (cfgs p) c) (c : Dev nD)

/-- The contents after launch `p` entered at `V`: its arrays as its data `d` has them at the end, every other buffer as on entry. -/
def Wl : Valuation τ sig (Elt F) := Pipeline.withArrays (cfgs p).spec c (V c) fun w => (d c).arrAt w (cfgs p).N

include lf in
theorem Wl_arr (w : Fin (cfgs p).W) : Wl V d c (Proc.devRef .tc (Pipeline.arrRef (cfgs p).spec w)) = (d c).arrAt w (cfgs p).N :=
  Pipeline.withArrays_arr _ lf.win.arr_inj c _ _ w
theorem Wl_of_ne (b : Ref sig .tc) (hb : ∀ w, Pipeline.arrRef (cfgs p).spec w ≠ b) : Wl V d c (Proc.devRef .tc b) = V c (Proc.devRef .tc b) :=
  Pipeline.withArrays_of_ne _ c _ _ b hb

include lf in
/-- A buffer that is no result array of the launch is as on entry: an input array never changes. -/
theorem Wl_in (hA : ∀ w, (d c).A w = rd V c (Pipeline.arrRef (cfgs p).spec w)) (b : Ref sig .tc)
    (hb : ∀ w, Pipeline.arrRef (cfgs p).spec w = b → ((cfgs p).win w).isOut = false) :
    Wl V d c (Proc.devRef .tc b) = V c (Proc.devRef .tc b) := by
  by_cases h : ∃ w, Pipeline.arrRef (cfgs p).spec w = b
  · obtain ⟨w, rfl⟩ := h
    exact (Wl_arr lf V d c w).trans (((d c).arrAt_in w (hb w rfl) _).trans (hA w))
  · exact Wl_of_ne V d c b fun w e => h ⟨w, e⟩
end

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 := rd (W1 m)
def W2 := Wl (p := 0) (W1 m) (dat0 (V1 m))
theorem W2_arr (c : Dev nD) (w : Fin cfg0.W) :
    W2 m c (Proc.devRef .tc (Pipeline.arrRef spec0 w)) = (dat0 (V1 m) c).arrAt w cfg0.N := Wl_arr launch0 _ _ c w
theorem W2_of_ne (c : Dev nD) (b : Ref sig .tc) (hb : ∀ w, Pipeline.arrRef spec0 w ≠ b) :
    W2 m c (Proc.devRef .tc b) = W1 m c (Proc.devRef .tc b) := Wl_of_ne (p := 0) _ _ c b hb
abbrev V2 := rd (W2 m)
abbrev W3 : Dev nD → Valuation τ sig (Elt F) := fun c => StableHlo.after hostOps1 (W2 m c)
abbrev V3 := rd (W3 m)
def W4 := Wl (p := 1) (W3 m) (dat1 (V3 m))
theorem W4_arr (c : Dev nD) (w : Fin cfg1.W) :
    W4 m c (Proc.devRef .tc (Pipeline.arrRef spec1 w)) = (dat1 (V3 m) c).arrAt w cfg1.N := Wl_arr launch1 _ _ c w
theorem W4_of_ne (c : Dev nD) (b : Ref sig .tc) (hb : ∀ w, Pipeline.arrRef spec1 w ≠ b) :
    W4 m c (Proc.devRef .tc b) = W3 m c (Proc.devRef .tc b) := Wl_of_ne (p := 1) _ _ c b hb
abbrev V4 := rd (W4 m)
def W5 := Wl (p := 2) (W4 m) (dat2 (V4 m))
theorem W5_arr (c : Dev nD) (w : Fin cfg2.W) :
    W5 m c (Proc.devRef .tc (Pipeline.arrRef spec2 w)) = (dat2 (V4 m) c).arrAt w cfg2.N := Wl_arr launch2 _ _ c w
theorem W5_of_ne (c : Dev nD) (b : Ref sig .tc) (hb : ∀ w, Pipeline.arrRef spec2 w ≠ b) :
    W5 m c (Proc.devRef .tc b) = W4 m c (Proc.devRef .tc b) := Wl_of_ne (p := 2) _ _ c b hb
abbrev V5 := rd (W5 m)
abbrev W6 : Dev nD → Valuation τ sig (Elt F) := fun c => StableHlo.after hostOps3 (W5 m c)
abbrev V6 := rd (W6 m)
def W7 := Wl (p := 3) (W6 m) (dat3 (V6 m))
theorem W7_arr (c : Dev nD) (w : Fin cfg3.W) :
    W7 m c (Proc.devRef .tc (Pipeline.arrRef spec3 w)) = (dat3 (V6 m) c).arrAt w cfg3.N := Wl_arr launch3 _ _ c w
theorem W7_of_ne (c : Dev nD) (b : Ref sig .tc) (hb : ∀ w, Pipeline.arrRef spec3 w ≠ b) :
    W7 m c (Proc.devRef .tc b) = W6 m c (Proc.devRef .tc b) := Wl_of_ne (p := 3) _ _ c b hb
abbrev V7 := rd (W7 m)
abbrev W8 : Dev nD → Valuation τ sig (Elt F) := fun c => StableHlo.after hostOps4 (W7 m c)
abbrev V8 := rd (W8 m)
def W9 := Wl (p := 4) (W8 m) (dat4 (V8 m))
theorem W9_arr (c : Dev nD) (w : Fin cfg4.W) :
    W9 m c (Proc.devRef .tc (Pipeline.arrRef spec4 w)) = (dat4 (V8 m) c).arrAt w cfg4.N := Wl_arr launch4 _ _ c w
abbrev V9 := rd (W9 m)

/-- A buffer that no host stretch writes and that is no launch's result array ends as launched. -/
theorem W9_kept (c : Dev nD) (b : Ref sig .tc)
    (h : (b ∉ hostOps0_W ∧ b ∉ hostOps1_W ∧ b ∉ hostOps3_W ∧ b ∉ hostOps4_W) ∧
      ∀ p w, Pipeline.arrRef (cfgs p).spec w = b → ((cfgs p).win w).isOut = false) :
    W9 m c (Proc.devRef .tc b) = m ((c : Thread nD τ).loc b) :=
  (Wl_in launch4 _ _ c (A_eq4 _ c) b (h.2 4)).trans <|
  (StableHlo.after_of_writes_sub hostOps4 _ hostOps4_writes h.1.2.2.2).trans <|
  (Wl_in launch3 _ _ c (A_eq3 _ c) b (h.2 3)).trans <|
  (StableHlo.after_of_writes_sub hostOps3 _ hostOps3_writes h.1.2.2.1).trans <|
  (Wl_in launch2 _ _ c (A_eq2 _ c) b (h.2 2)).trans <|
  (Wl_in launch1 _ _ c (A_eq1 _ c) b (h.2 1)).trans <|
  (StableHlo.after_of_writes_sub hostOps1 _ hostOps1_writes h.1.2.1).trans <|
  (Wl_in launch0 _ _ c (A_eq0 _ c) b (h.2 0)).trans <|
  StableHlo.after_of_writes_sub hostOps0 _ hostOps0_writes h.1.1

def pdats : (p : Fin 5) → (c : Dev nD) → Dat τ (Elt F) Unit ℕ (UR sig nD τ) ℕ (cfgs p) c
  | ⟨0, _⟩ => dat0 (V1 m)
  | ⟨1, _⟩ => dat1 (V3 m)
  | ⟨2, _⟩ => dat2 (V4 m)
  | ⟨3, _⟩ => dat3 (V6 m)
  | ⟨4, _⟩ => dat4 (V8 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- Every buffer of a core at `W`, beside `R`. -/
abbrev St (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section
variable (D : (p : Fin 5) → (c : Dev nD) → Dat τ (Elt F) Unit ℕ (UR sig nD τ) ℕ (cfgs p) c)
  {p : Fin 5} (lf : Pipeline.LaunchFacts (nD := nD) (τ := τ) cfgs p) (V : Dev nD → Valuation τ sig (Elt F))
  (hb : ∀ c, BodyObligation (D p c) (defs₀ (F := F)) Variants.none () Set.univ)
  (hq : ∀ c w, (D p c).q w = fullShare := by intros; rfl) (hz : ∀ c t, (D p c).owed t = 0 := by intros; rfl)
  (hr : ∀ c, (D p c).recorded 0 = Set.univ := by intros; rfl)
  (hA : ∀ c w, (D p c).A w = rd V c (Pipeline.arrRef (cfgs p).spec w) := by intros; rfl)
  (hi : ∀ c, Pipeline.ΦA (cfgs p).spec c ⊢ (D p c).Φ 0 := by intros; rfl)
  (hx : ∀ c, (D p c).Φ (Fin.last _) ⊢ Pipeline.ΦA (cfgs p).spec c := by intros; rfl)

/-- Launch `p` as an item of the program: entered with every buffer at `V`, left with them at `Wl V (D p)`. -/
def regOf : Pipeline.RegionSeg (pcfgs (F := F)) adm D () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre := St V
  post := St (Wl V (D p))
  X c := iprop(∃ r, prngReg c r)
  Y c := iprop(∃ r, prngReg c r)
  Z c := Pipeline.unscopedRest (cfgs p).spec c (rd V c)
  hentry c := by
    have hsplit := Pipeline.arrays_of_unscopedBufs (p := p) (pcfgs (F := F)) adm D lf.win lf.arr_whole c
      ((D p c).share_full (hq c)) _ (hA c)
    rw [Pipeline.unscopedBufs_held] at hsplit
    iintro ⟨⟨Hub, Hp, HO⟩, -, -⟩
    ihave ⟨Ha, Hrest⟩ := hsplit $$ Hub
    imodintro
    iframe Ha Hp Hrest
    isplitr; · unfold Pipeline.prefHeld; erw [BI.bigSep_empty]; iempintro
    unfold Pipeline.Dat.owesAt Pipeline.owesWithin; rw [hz c]
    icases HO with ⟨%W, HO⟩; iexists W; iframe HO; ipureintro; exact fun _ _ => Or.inl (hr c ▸ Set.mem_univ _)
  hin c := ((BI.sep_mono_r ((BI.sep_mono_l BI.affine).trans BI.emp_sep_elim)).trans BI.sep_comm).trans (hi c)
  hout c := by rw [Pipeline.ownSems0_none]; exact (hx c).trans (BI.sep_comm.trans (BI.sep_mono_r BI.emp_sep_intro))
  hexit c := by
    have hjoin := Pipeline.unscopedBufs_of_arrays (p := p) (pcfgs (F := F)) adm
      lf.win lf.arr_whole c D ((D p c).share_full (hq c)) _ (rd (Wl V (D p)) c) _
      (fun w => (Wl_arr lf V (D p) c w).symm)
      fun b hb => Wl_of_ne V (D p) c b fun w e => hb (Finset.mem_image.mpr ⟨w, Finset.mem_univ _, e⟩)
    rw [Pipeline.unscopedBufs_held] at hjoin
    unfold Pipeline.Dat.owesAt Pipeline.owesWithin; rw [hz c]
    iintro ⟨Ha, ⟨%W, -, HO⟩, HY, Hrest⟩
    imodintro
    isplitl [Ha Hrest]
    · iapply hjoin; iframe
    isplitl [HY]; · iexact HY
    iexists W; iexact HO
end

abbrev segs : List (Pipeline.Seg (pcfgs (F := F)) adm (pdats m) () defs₀ 𝒱₀ L lv) :=
  [ .host (hseg hostOps0 hostOps0_sub hostOps0_fresh (W0 m)),
    .region (regOf (pdats m) launch0 (W1 m) (body_obligation0 (V1 m))),
    .host (hseg hostOps1 hostOps1_sub hostOps1_fresh (W2 m)),
    .region (regOf (pdats m) launch1 (W3 m) (body_obligation1 (V3 m))),
    .region (regOf (pdats m) launch2 (W4 m) (body_obligation2 (V4 m))),
    .host (hseg hostOps3 hostOps3_sub hostOps3_fresh (W5 m)),
    .region (regOf (pdats m) launch3 (W6 m) (body_obligation3 (V6 m))),
    .host (hseg hostOps4 hostOps4_sub hostOps4_fresh (W7 m)),
    .region (regOf (pdats m) launch4 (W8 m) (body_obligation4 (V8 m)) (hi := hin4 _) (hx := hout4 _)) ]

/-- The program's items chain from the launch memory to `W9`, so a run ends with every buffer there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [(main_chain c).trans (by chain_rfl : _ = Pipeline.Seg.run (segs m))])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := St (W0 m))
    (Tₙ := fun c => iprop(StableHlo.held (c : Thread nD τ) (Pipeline.ucRefs τ sig) (W9 m c) ∗ ∃ r, prngReg c r))
    (hch := by refine ⟨?_, ?_, ?_, ?_, ?_, ?_, ?_, ?_, ?_, fun _ => BI.sep_assoc'⟩ <;> exact fun _ => .rfl)
    (hinit := by
      refine Pipeline.initEach L lv fun c => ?_
      erw [Pipeline.unscopedBufs_held c (W0 m c)]
      iintro ⟨⟨Hh, -, HO, -, Hp, -⟩, -⟩
      imodintro
      unfold St; iframe Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      iframe)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have k (b : Ref sig .tc) hu hk : _ = m ((c.tc : Thread nD τ).loc b) := (h c _ (mem_uc b hu)).trans (W9_kept m c b hk)
    ⟨k main_arg0 (by decide) (by decide), k main_arg1 (by decide) (by decide), k main_arg2 (by decide) (by decide),
     k main_arg3 (by decide) (by decide), k main_arg4 (by decide) (by decide), k main_arg5 (by decide) (by decide),
     k main_arg6 (by decide) (by decide)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SN : Shape := ⟨1, ![100000]⟩
abbrev SNxD : Shape := ⟨2, ![100000, 128]⟩
abbrev SNx1 : Shape := ⟨2, ![100000, 1]⟩
abbrev SDxD : Shape := ⟨2, ![128, 128]⟩
abbrev SD : Shape := ⟨1, ![128]⟩
abbrev S2xE : Shape := ⟨2, ![2, 1600000]⟩
abbrev SE : Shape := ⟨1, ![1600000]⟩
abbrev SEx1 : Shape := ⟨2, ![1600000, 1]⟩
abbrev SExD : Shape := ⟨2, ![1600000, 128]⟩
abbrev SG : Shape := ⟨1, ![64]⟩
abbrev SGxD : Shape := ⟨2, ![64, 128]⟩

def sdDeg : ScatterDims SN SEx1 SE where
  updateWindowDims := []
  insertedWindowDims := [0]
  scatterDimsToOperandDims := [0]
  indexVectorDim := 1
def sdAgg : ScatterDims SNxD SEx1 SExD where
  updateWindowDims := [1]
  insertedWindowDims := [0]
  scatterDimsToOperandDims := [0]
  indexVectorDim := 1
def sdPool : ScatterDims SGxD SNx1 SNxD where
  updateWindowDims := [1]
  insertedWindowDims := [0]
  scatterDimsToOperandDims := [0]
  indexVectorDim := 1
def sdCnt : ScatterDims SG SNx1 SN where
  updateWindowDims := []
  insertedWindowDims := [0]
  scatterDimsToOperandDims := [0]
  indexVectorDim := 1
def gdRow : GatherDims SNxD SEx1 SExD where
  offsetDims := [1]
  collapsedSliceDims := [0]
  operandBatchingDims := []
  startIndicesBatchingDims := []
  startIndexMap := [0]
  indexVectorDim := 1
  sliceSizes := ![1, 128]
def gdVec : GatherDims SN SEx1 SE where
  offsetDims := []
  collapsedSliceDims := [0]
  operandBatchingDims := []
  startIndicesBatchingDims := []
  startIndexMap := [0]
  indexVectorDim := 1
  sliceSizes := ![1]

def wrap (i : BitVec 32) : BitVec 32 := Scalar.select (IntOp.cmpi .slt i 0#32) (i + 100000#32) i

def dstI (ei : S2xE.Idx → BitVec 32) : SEx1.Idx → BitVec 32 := fun j => ei (ix2 1 (j 0))
def srcI (ei : S2xE.Idx → BitVec 32) : SEx1.Idx → BitVec 32 := fun j => wrap (ei (ix2 0 (j 0)))
def dstW (ei : S2xE.Idx → BitVec 32) : SEx1.Idx → BitVec 32 := fun j => wrap (ei (ix2 1 (j 0)))
def btI (bt : SN.Idx → BitVec 32) : SNx1.Idx → BitVec 32 := fun j => bt (ix1 (j 0))

def deg (ei : S2xE.Idx → BitVec 32) : SN.Idx → EReal :=
  fun v => Ideal.hostScatterAdd sdDeg (fun _ => (0 : EReal)) (dstI ei) (fun _ => (1 : EReal)) v + 1
/-- A node's factor: the inverse square root of its in-degree plus one. -/
def dinv (ei : S2xE.Idx → BitVec 32) : SN.Idx → EReal := fun v => Ideal.rsqrt (deg ei v)

def xw (x : SNxD.Idx → EReal) (W : SDxD.Idx → EReal) : SNxD.Idx → EReal :=
  fun i => ∑ k : Fin 128, x (ix2 (i 0) k) * W (ix2 k (i 1))

def scaled (x : SNxD.Idx → EReal) (W : SDxD.Idx → EReal) (ei : S2xE.Idx → BitVec 32) : SNxD.Idx → EReal :=
  fun i => xw x W i * dinv ei (ix1 (i 0))

def aggK (x : SNxD.Idx → EReal) (W : SDxD.Idx → EReal) (ei : S2xE.Idx → BitVec 32) : SNxD.Idx → EReal :=
  Ideal.hostScatterAdd sdAgg (fun _ => (0 : EReal)) (dstI ei) (Host.gather gdRow (scaled x W ei) (srcI ei))

def layerK (x : SNxD.Idx → EReal) (W : SDxD.Idx → EReal) (b : SD.Idx → EReal) (ei : S2xE.Idx → BitVec 32) :
    SNxD.Idx → EReal :=
  fun i => max (dinv ei (ix1 (i 0)) * (aggK x W ei i + scaled x W ei i) + b (ix1 (i 1))) 0

def norm (ei : S2xE.Idx → BitVec 32) : SE.Idx → EReal :=
  fun e => Host.gather gdVec (dinv ei) (srcI ei) e * Host.gather gdVec (dinv ei) (dstW ei) e

def aggR (x : SNxD.Idx → EReal) (W : SDxD.Idx → EReal) (ei : S2xE.Idx → BitVec 32) : SNxD.Idx → EReal :=
  Ideal.hostScatterAdd sdAgg (fun _ => (0 : EReal)) (dstI ei)
    (fun j => Host.gather gdRow (xw x W) (srcI ei) j * norm ei (ix1 (j 0)))

def layerR (x : SNxD.Idx → EReal) (W : SDxD.Idx → EReal) (b : SD.Idx → EReal) (ei : S2xE.Idx → BitVec 32) :
    SNxD.Idx → EReal :=
  fun i => max ((aggR x W ei i + xw x W i * (dinv ei (ix1 (i 0)) * dinv ei (ix1 (i 0)))) + b (ix1 (i 1))) 0

def member (b : BitVec 32) (g : Fin 64) : EReal := if b = BitVec.ofNat 32 g.val then 1 else 0

def poolK (bt : SN.Idx → BitVec 32) (h : SNxD.Idx → EReal) : SGxD.Idx → EReal :=
  fun i => Ideal.div (∑ n : Fin 100000, member (bt (ix1 n)) (i 0) * h (ix2 n (i 1)))
    (max (∑ n : Fin 100000, member (bt (ix1 n)) (i 0) * 1) 1)

def poolR (bt : SN.Idx → BitVec 32) (h : SNxD.Idx → EReal) : SGxD.Idx → EReal :=
  fun i => Ideal.div (Ideal.hostScatterAdd sdPool (fun _ => (0 : EReal)) (btI bt) h i)
    (max (Ideal.hostScatterAdd sdCnt (fun _ => (0 : EReal)) (btI bt) (fun _ => (1 : EReal)) (ix1 (i 0))) 1)

/-- The network with each node's destination factor taken out of its sum over incoming edges, pooled by a product with the 0/1 membership of nodes in graphs. -/
def netK (x : SNxD.Idx → EReal) (W1 : SDxD.Idx → EReal) (b1 : SD.Idx → EReal) (W2 : SDxD.Idx → EReal)
    (b2 : SD.Idx → EReal) (ei : S2xE.Idx → BitVec 32) (bt : SN.Idx → BitVec 32) : SGxD.Idx → EReal :=
  poolK bt (layerK (layerK x W1 b1 ei) W2 b2 ei)

/-- The network with every message normalised by both endpoints' factors, pooled by summing node rows into their graphs. -/
def netR (x : SNxD.Idx → EReal) (W1 : SDxD.Idx → EReal) (b1 : SD.Idx → EReal) (W2 : SDxD.Idx → EReal)
    (b2 : SD.Idx → EReal) (ei : S2xE.Idx → BitVec 32) (bt : SN.Idx → BitVec 32) : SGxD.Idx → EReal :=
  poolR bt (layerR (layerR x W1 b1 ei) W2 b2 ei)

def IsReal {S : Shape} (x : S.Idx → EReal) : Prop := ∀ i, ∃ r : ℝ, x i = (r : EReal)

abbrev S1xD : Shape := ⟨2, ![1, 128]⟩

def dinvCol (ei : S2xE.Idx → BitVec 32) : SNx1.Idx → EReal := fun j => dinv ei (ix1 (j 0))
def biasRow (b : SD.Idx → EReal) : S1xD.Idx → EReal := fun j => b (ix1 (j 1))

def mmScale (x : SNxD.Idx → EReal) (W : SDxD.Idx → EReal) (dc : SNx1.Idx → EReal) : SNxD.Idx → EReal :=
  fun i => xw x W i * dc (ix2 (i 0) 0)

def aggOf (hs : SNxD.Idx → EReal) (ei : S2xE.Idx → BitVec 32) : SNxD.Idx → EReal :=
  Ideal.hostScatterAdd sdAgg (fun _ => (0 : EReal)) (dstI ei) (Host.gather gdRow hs (srcI ei))

def epi (ag hs : SNxD.Idx → EReal) (dc : SNx1.Idx → EReal) (br : S1xD.Idx → EReal) : SNxD.Idx → EReal :=
  fun i => max (dc (ix2 (i 0) 0) * (ag i + hs i) + br (ix2 0 (i 1))) 0

def poolCol (bc : SNx1.Idx → BitVec 32) (h : SNxD.Idx → EReal) : SGxD.Idx → EReal :=
  fun i => Ideal.div (∑ n : Fin 100000, member (bc (ix2 n 0)) (i 0) * h (ix2 n (i 1)))
    (max (∑ n : Fin 100000, member (bc (ix2 n 0)) (i 0) * 1) 1)

theorem layerK_eq (x : SNxD.Idx → EReal) (W : SDxD.Idx → EReal) (b : SD.Idx → EReal) (ei : S2xE.Idx → BitVec 32) :
    layerK x W b ei
      = epi (aggOf (mmScale x W (dinvCol ei)) ei) (mmScale x W (dinvCol ei)) (dinvCol ei) (biasRow b) := rfl

theorem poolK_eq (bt : SN.Idx → BitVec 32) (h : SNxD.Idx → EReal) : poolK bt h = poolCol (btI bt) h := rfl

end Cert.Spec

end
-- ==== Proof.KI.Host.lean ====
import proofs.«427324_j33749853012495_3_alg».proof.Proof.KI.Run
import proofs.«427324_j33749853012495_3_alg».proof.Proof.Spec
import Idealize.ShloMosaic.Lib.Pipeline.Value
import Idealize.ShloMosaic.Lib.IdealHost
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

end Layout

theorem edgeRow_apply (ei : S2x1600000.Idx → BitVec 32) (o : ℕ) (h : S2x1600000.Slices ![o, 0] S1x1600000)
    (k : Fin 2) (hk : k.val = o) (e : S1600000.Idx) :
    shapeCast S1600000 (extractStridedSlice S1x1600000 ![o, 0] ei h) shapeCasts_S1x1600000_S1600000 e
      = ei (ix2 k (e 0)) := by
  obtain ⟨e, rfl⟩ : ∃ e' : Fin 1600000, e = ix1 e' := ⟨e 0, eq_ix1 e⟩
  refine (shapeCast_1a_a_apply _ shapeCasts_S1x1600000_S1600000 e).trans ?_
  exact slice2_axis0_apply o ei h (0 : Fin 1) e k (by rw [hk]; rfl)

theorem col_apply (x : S1600000.Idx → BitVec 32) (j : S1600000x1.Idx) :
    broadcastInDim S1600000x1 ![0] bcast_S1600000_S1600000x1_0 x j = x (ix1 (j 0)) := by
  obtain ⟨e, u, rfl⟩ : ∃ (e : Fin 1600000) (u : Fin 1), j = ix2 e u := ⟨j 0, j 1, eq_ix2 j⟩
  exact broadcastInDim_a_a1_apply x bcast_S1600000_S1600000x1_0 e u

theorem dst_col (v3 : S1600000.Idx → BitVec 32) (ei : S2x1600000.Idx → BitVec 32)
    (h3 : ∀ e, v3 e = ei (ix2 1 (e 0))) :
    broadcastInDim S1600000x1 ![0] bcast_S1600000_S1600000x1_0 v3 = Cert.Spec.dstI ei := by
  funext j
  rw [col_apply, h3]
  rfl

theorem src_col (v1 : S1600000.Idx → BitVec 32) (ei : S2x1600000.Idx → BitVec 32)
    (h1 : ∀ e, v1 e = ei (ix2 0 (e 0))) :
    broadcastInDim S1600000x1 ![0] bcast_S1600000_S1600000x1_0
        (select (cmpi .slt v1 (broadcastInDim S1600000 ![] bcast_S_S1600000 (constantI S_ 32 0#32)))
          (addi v1 (broadcastInDim S1600000 ![] bcast_S_S1600000 (constantI S_ 32 100000#32))) v1)
      = Cert.Spec.srcI ei := by
  funext j
  rw [col_apply]
  show Scalar.select
      (IntOp.cmpi .slt (v1 (ix1 (j 0))) (broadcastInDim S1600000 ![] bcast_S_S1600000 (constantI S_ 32 0#32) (ix1 (j 0))))
      (IntOp.addi (v1 (ix1 (j 0))) (broadcastInDim S1600000 ![] bcast_S_S1600000 (constantI S_ 32 100000#32) (ix1 (j 0))))
      (v1 (ix1 (j 0))) = _
  rw [broadcastInDim_scalar_apply, broadcastInDim_scalar_apply, h1]
  rfl

theorem zero_bcast {t : Shape} (h : S_.BroadcastsInDim t ![]) :
    broadcastInDim t ![] h (constant (F := Ideal) S_ .f32 0x00000000#32) = fun _ => (0 : EReal) := by
  funext j
  rw [broadcastInDim_scalar_apply]
  exact Ideal.ofBits_zero_f32

theorem one_bcast {t : Shape} (h : S_.BroadcastsInDim t ![]) :
    broadcastInDim t ![] h (constant (F := Ideal) S_ .f32 0x3F800000#32) = fun _ => (1 : EReal) := by
  funext j
  rw [broadcastInDim_scalar_apply]
  exact Ideal.ofBits_one_f32

/-- The host gather and scatter-add between launches: each node's sum, over its incoming edges, of the scaled rows at their sources. -/
theorem agg_eq (hs : S100000x128.Idx → EReal) (v1 v3 : S1600000.Idx → BitVec 32) (ei : S2x1600000.Idx → BitVec 32)
    (h1 : ∀ e, v1 e = ei (ix2 0 (e 0))) (h3 : ∀ e, v3 e = ei (ix2 1 (e 0))) :
    Host.scatterAdd (F := Ideal) (φ := .f32) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 v3)
        (Host.gather gather_S100000x128_S1600000x1_S1600000x128_1_0_n_n_0_1_1128 hs
          (broadcastInDim S1600000x1 ![0] bcast_S1600000_S1600000x1_0
            (select (cmpi .slt v1 (broadcastInDim S1600000 ![] bcast_S_S1600000 (constantI S_ 32 0#32)))
              (addi v1 (broadcastInDim S1600000 ![] bcast_S_S1600000 (constantI S_ 32 100000#32))) v1)))
      = Cert.Spec.aggOf hs ei := by
  rw [dst_col v3 ei h3, src_col v1 ei h1, zero_bcast]
  rfl

theorem host_rsqrt_apply {s : Shape} (x : FVec Ideal s .f32) (i : s.Idx) : Host.rsqrt x i = Ideal.rsqrt (x i) := rfl
theorem host_scatterAdd_eq {s si u : Shape} {w : ℕ} (d : ScatterDims s si u) (x : FVec Ideal s .f32) (idx : IVec si w)
    (upd : FVec Ideal u .f32) : Host.scatterAdd d x idx upd = Ideal.hostScatterAdd d x idx upd := rfl

theorem dinvCol_eq (v3 : S1600000.Idx → BitVec 32) (ei : S2x1600000.Idx → BitVec 32)
    (h3 : ∀ e, v3 e = ei (ix2 1 (e 0))) (j : S100000x1.Idx) :
    shapeCast S100000x1
        (Host.rsqrt (F := Ideal) (φ := .f32)
          (addf
            (Host.scatterAdd scatter_S100000_S1600000x1_S1600000_n_0_0_1
              (broadcastInDim S100000 ![] bcast_S_S100000 (constant (F := Ideal) S_ .f32 0x00000000#32))
              (broadcastInDim S1600000x1 ![0] bcast_S1600000_S1600000x1_0 v3)
              (broadcastInDim S1600000 ![] bcast_S_S1600000 (constant (F := Ideal) S_ .f32 0x3F800000#32)))
            (broadcastInDim S100000 ![] bcast_S_S100000 (constant (F := Ideal) S_ .f32 0x3F800000#32))))
        shapeCasts_S100000_S100000x1 j
      = Cert.Spec.dinvCol ei j := by
  obtain ⟨v, u, rfl⟩ : ∃ (v : Fin 100000) (u : Fin 1), j = ix2 v u := ⟨j 0, j 1, eq_ix2 j⟩
  have hs : scatter_S100000_S1600000x1_S1600000_n_0_0_1 = Cert.Spec.sdDeg := rfl
  rw [shapeCast_a_a1_apply, dst_col v3 ei h3, zero_bcast, one_bcast, one_bcast, hs, host_rsqrt_apply, addf_apply, host_scatterAdd_eq]
  unfold Cert.Spec.dinvCol Cert.Spec.dinv Cert.Spec.deg
  rfl

variable (m : (ℓ : Loc nD τ sig) → Buf (Elt Ideal) ℓ) (c : Dev nD)

theorem W1_v1 (e : S1600000.Idx) :
    (W1 m c (Proc.devRef .tc main_v1) : S1600000.Idx → BitVec 32) e
      = (m ((c : Thread nD τ).loc main_arg5) : S2x1600000.Idx → BitVec 32) (ix2 0 (e 0)) := by
  refine .trans (congrFun ?_ e) (edgeRow_apply _ 0 slices_S2x1600000_S1x1600000_0_0 0 rfl e)
  show StableHlo.after hostOps0 (W0 m c) (Proc.devRef .tc main_v1) = _
  after_results
  rfl

theorem W1_v3 (e : S1600000.Idx) :
    (W1 m c (Proc.devRef .tc main_v3) : S1600000.Idx → BitVec 32) e
      = (m ((c : Thread nD τ).loc main_arg5) : S2x1600000.Idx → BitVec 32) (ix2 1 (e 0)) := by
  refine .trans (congrFun ?_ e) (edgeRow_apply _ 1 slices_S2x1600000_S1x1600000_1_0 1 rfl e)
  show StableHlo.after hostOps0 (W0 m c) (Proc.devRef .tc main_v3) = _
  after_results
  rfl

/-- A buffer the first host stretch does not write is, after it, as launched. -/
theorem k1 (b : Ref sig .tc) (h : b ∉ hostOps0_W) : W1 m c (Proc.devRef .tc b) = m ((c : Thread nD τ).loc b) :=
  StableHlo.after_of_writes_sub hostOps0 _ hostOps0_writes h

section
variable (b : Ref sig .tc)
  (h : (b ∉ hostOps1_W ∧ b ∉ hostOps3_W) ∧ ∀ p w, Pipeline.arrRef (cfgs p).spec w = b → ((cfgs p).win w).isOut = false)
include h

/-- A buffer that no later host stretch writes and that is no launch's result array stays as the first host stretch left it. -/
theorem l2 : W2 m c (Proc.devRef .tc b) = W1 m c (Proc.devRef .tc b) := Wl_in launch0 _ _ c (A_eq0 _ c) b (h.2 0)
theorem l3 : W3 m c (Proc.devRef .tc b) = W1 m c (Proc.devRef .tc b) :=
  (StableHlo.after_of_writes_sub hostOps1 _ hostOps1_writes h.1.1).trans (l2 m c b h)
theorem l4 : W4 m c (Proc.devRef .tc b) = W1 m c (Proc.devRef .tc b) := (Wl_in launch1 _ _ c (A_eq1 _ c) b (h.2 1)).trans (l3 m c b h)
theorem l5 : W5 m c (Proc.devRef .tc b) = W1 m c (Proc.devRef .tc b) := (Wl_in launch2 _ _ c (A_eq2 _ c) b (h.2 2)).trans (l4 m c b h)
theorem l6 : W6 m c (Proc.devRef .tc b) = W1 m c (Proc.devRef .tc b) :=
  (StableHlo.after_of_writes_sub hostOps3 _ hostOps3_writes h.1.2).trans (l5 m c b h)
theorem l7 : W7 m c (Proc.devRef .tc b) = W1 m c (Proc.devRef .tc b) := (Wl_in launch3 _ _ c (A_eq3 _ c) b (h.2 3)).trans (l6 m c b h)
end

theorem V1_arg0 : V1 m c main_arg0 = m ((c : Thread nD τ).loc main_arg0) := k1 m c _ (by decide)
theorem V1_arg1 : V1 m c main_arg1 = m ((c : Thread nD τ).loc main_arg1) := k1 m c _ (by decide)
theorem V1_v11 : V1 m c main_v11 = Cert.Spec.dinvCol (m ((c : Thread nD τ).loc main_arg5)) := by
  show StableHlo.after hostOps0 (W0 m c) (Proc.devRef .tc main_v11) = _
  after_results
  funext j
  exact dinvCol_eq _ (m ((c : Thread nD τ).loc main_arg5))
    (fun e => edgeRow_apply _ 1 slices_S2x1600000_S1x1600000_1_0 1 rfl e) j

theorem V3_v12 : V3 m c main_v12 = V2 m c main_v12 :=
  StableHlo.after_of_writes_sub hostOps1 _ hostOps1_writes (by decide : main_v12 ∉ hostOps1_W)
theorem V3_v11 : V3 m c main_v11 = V1 m c main_v11 := l3 m c _ (by decide)
theorem V3_v22 :
    V3 m c main_v22 = Cert.Spec.aggOf (V2 m c main_v12) (m ((c : Thread nD τ).loc main_arg5)) := by
  show StableHlo.after hostOps1 (W2 m c) (Proc.devRef .tc main_v22) = _
  after_results
  exact agg_eq _ _ _ _ (fun e => by rw [l2 m c main_v1 (by decide)]; exact W1_v1 m c e)
    (fun e => by rw [l2 m c main_v3 (by decide)]; exact W1_v3 m c e)

theorem biasRow_eq (x : S128.Idx → EReal) : shapeCast S1x128 x shapeCasts_S128_S1x128 = Cert.Spec.biasRow x := by
  funext j
  obtain ⟨u, k, rfl⟩ : ∃ (u : Fin 1) (k : Fin 128), j = ix2 u k := ⟨j 0, j 1, eq_ix2 j⟩
  exact shapeCast_a_1a_apply _ shapeCasts_S128_S1x128 u k

theorem V3_v23 : V3 m c main_v23 = Cert.Spec.biasRow (m ((c : Thread nD τ).loc main_arg2)) := by
  show StableHlo.after hostOps1 (W2 m c) (Proc.devRef .tc main_v23) = _
  after_results
  rw [l2 m c main_arg2 (by decide), k1 m c main_arg2 (by decide)]
  exact biasRow_eq _

theorem V4_arg3 : V4 m c main_arg3 = m ((c : Thread nD τ).loc main_arg3) := (l4 m c _ (by decide)).trans (k1 m c _ (by decide))
theorem V4_v11 : V4 m c main_v11 = V1 m c main_v11 := l4 m c _ (by decide)

theorem V6_v25 : V6 m c main_v25 = V5 m c main_v25 :=
  StableHlo.after_of_writes_sub hostOps3 _ hostOps3_writes (by decide : main_v25 ∉ hostOps3_W)
theorem V6_v11 : V6 m c main_v11 = V1 m c main_v11 := l6 m c _ (by decide)
theorem V6_v35 :
    V6 m c main_v35 = Cert.Spec.aggOf (V5 m c main_v25) (m ((c : Thread nD τ).loc main_arg5)) := by
  show StableHlo.after hostOps3 (W5 m c) (Proc.devRef .tc main_v35) = _
  after_results
  exact agg_eq _ _ _ _ (fun e => by rw [l5 m c main_v1 (by decide)]; exact W1_v1 m c e)
    (fun e => by rw [l5 m c main_v3 (by decide)]; exact W1_v3 m c e)
theorem V6_v36 : V6 m c main_v36 = Cert.Spec.biasRow (m ((c : Thread nD τ).loc main_arg4)) := by
  show StableHlo.after hostOps3 (W5 m c) (Proc.devRef .tc main_v36) = _
  after_results
  rw [l5 m c main_arg4 (by decide), k1 m c main_arg4 (by decide)]
  exact biasRow_eq _

theorem V8_v37 : V8 m c main_v37 = V7 m c main_v37 :=
  StableHlo.after_of_writes_sub hostOps4 _ hostOps4_writes (by decide : main_v37 ∉ hostOps4_W)
theorem V8_v38 : V8 m c main_v38 = Cert.Spec.btI (m ((c : Thread nD τ).loc main_arg6)) := by
  show StableHlo.after hostOps4 (W7 m c) (Proc.devRef .tc main_v38) = _
  after_results
  rw [l7 m c main_arg6 (by decide), k1 m c main_arg6 (by decide)]
  funext j
  obtain ⟨n, u, rfl⟩ : ∃ (n : Fin 100000) (u : Fin 1), j = ix2 n u := ⟨j 0, j 1, eq_ix2 j⟩
  exact shapeCast_a_a1_apply _ shapeCasts_S100000_S100000x1 n u

end Cert.KernelIdeal.Hand

end
-- ==== Proof.KI.ValTile.lean ====
import Idealize.ShloMosaic.Lib.ValueIdx

namespace Cert.KernelIdeal.Hand

open Idealize.ShloMosaic Idealize.ShloMosaic.ValueIdx

theorem ix2_ext {n0 n1 : ℕ} {j : (⟨2, ![n0, n1]⟩ : Shape).Idx} {a : Fin n0} {b : Fin n1} (h0 : (j 0).val = a.val) (h1 : (j 1).val = b.val) :
    j = ix2 a b := by
  funext d; apply Fin.ext
  match d with
  | ⟨0, _⟩ => exact h0
  | ⟨1, _⟩ => exact h1

/-- Fifty blocks of 2000 whole rows, block `t` at rows `2000 t ..`, cover the 100000 rows: row `r` lies in block `r / 2000`. -/
theorem cover_rows {N : ℕ} (hN : N = 50) (B : Fin N → Finset (⟨2, ![100000, 128]⟩ : Shape).Idx) (idx : Fin N → Fin 2 → ℕ)
    (hmem : ∀ t i, i ∈ B t ↔ ∀ a : Fin 2, idx t a * (⟨2, ![2000, 128]⟩ : Shape).size a ≤ (i a).val
      ∧ (i a).val < idx t a * (⟨2, ![2000, 128]⟩ : Shape).size a + (⟨2, ![2000, 128]⟩ : Shape).size a)
    (h0 : ∀ t, idx t 0 = t.val) (h1 : ∀ t, idx t 1 = 0) (i : (⟨2, ![100000, 128]⟩ : Shape).Idx) : ∃ t, i ∈ B t := by
  have hi0 : (i 0).val < 100000 := idx2_lt0 i
  have hi1 : (i 1).val < 128 := idx2_lt1 i
  refine ⟨⟨(i 0).val / 2000, by omega⟩, (hmem _ i).mpr fun a => ?_⟩
  match a with
  | ⟨0, _⟩ =>
    show idx _ 0 * 2000 ≤ (i 0).val ∧ (i 0).val < idx _ 0 * 2000 + 2000
    rw [h0]; show (i 0).val / 2000 * 2000 ≤ (i 0).val ∧ (i 0).val < (i 0).val / 2000 * 2000 + 2000; omega
  | ⟨1, _⟩ =>
    show idx _ 1 * 128 ≤ (i 1).val ∧ (i 1).val < idx _ 1 * 128 + 128
    rw [h1]; omega

end Cert.KernelIdeal.Hand
-- ==== Proof.KI.Val0.lean ====
import proofs.«427324_j33749853012495_3_alg».proof.Proof.KI.Reg0
import proofs.«427324_j33749853012495_3_alg».proof.Proof.KI.ValTile
import proofs.«427324_j33749853012495_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem hz0 : (![0, 0] : Fin 2 → Nat) = fun _ => 0 := funext fun a => by fin_cases a <;> rfl

/-- A tile's product with the weights into a zero accumulator, at an entry: the plain sum over the 128 columns. -/
theorem mm0_apply (x0 : Vec Ideal S2000x128 .f32) (x1 : Vec Ideal S128x128 .f32) (p : Fin 2000) (q : Fin 128) :
    (matmul dot_S2000x128_S128x128_S2000x128_1_0_0_1_n_n none (truncf .bf16 x0 bitsLt_bf16_f32 : FVec Ideal S2000x128 .bf16)
        (truncf .bf16 x1 bitsLt_bf16_f32 : FVec Ideal S128x128 .bf16) (constant S2000x128 .f32 0x00000000#32) : FVec Ideal S2000x128 .f32) (ix2 p q)
      = ∑ k : Fin 128, x0 (ix2 p k) * x1 (ix2 k q) := by
  have l0 : ∀ i k, (dot_S2000x128_S128x128_S2000x128_1_0_0_1_n_n.lhsIdx i k 0).val = (i 0).val := fun i k => by
    unfold DotDims.lhsIdx; rw [dif_neg, dif_pos] <;> first | rfl | decide
  have r1 : ∀ i k, (dot_S2000x128_S128x128_S2000x128_1_0_0_1_n_n.rhsIdx i k 1).val = (i 1).val := fun i k => by
    unfold DotDims.rhsIdx; rw [dif_neg, dif_pos] <;> first | rfl | decide
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact l0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact r1 _ _)
  rw [el, er]
  rfl

theorem col0_apply (x2 : Vec Ideal S2000x1 .f32) (p : Fin 2000) (q : Fin 128) :
    (broadcastTo S2000x128 (shapeCast S2000x1 x2 shapeCasts_S2000x1_S2000x1) broadcasts_S2000x1_S2000x128 : FVec Ideal S2000x128 .f32) (ix2 p q)
      = x2 (ix2 p 0) := by
  rw [shapeCast_self]
  refine broadcastTo_apply x2 broadcasts_S2000x1_S2000x128 (ix2 p q) (ix2 p 0) fun a => ?_
  match a with
  | ⟨0, _⟩ => rfl
  | ⟨1, _⟩ => rfl

theorem pay0_apply (x0 : Vec Ideal S2000x128 .f32) (x1 : Vec Ideal S128x128 .f32) (x2 : Vec Ideal S2000x1 .f32) (p : Fin 2000) (q : Fin 128) :
    (k0_pay1 (F := Ideal) x0 x1 x2 : FVec Ideal S2000x128 .f32) (ix2 p q) = (∑ k : Fin 128, x0 (ix2 p k) * x1 (ix2 k q)) * x2 (ix2 p 0) := by
  unfold k0_pay1
  refine (mulf_apply _ _ (ix2 p q)).trans ?_
  rw [mm0_apply, col0_apply]

theorem tile0_eq (X : S100000x128.Idx → EReal) (W : S128x128.Idx → EReal) (D : S100000x1.Idx → EReal)
    (x0 : Vec Ideal S2000x128 .f32) (x1 : Vec Ideal S128x128 .f32) (x2 : Vec Ideal S2000x1 .f32)
    (p : Fin 2000) (q : Fin 128) (r : Fin 100000)
    (h0 : ∀ k : Fin 128, x0 (ix2 p k) = X (ix2 r k))
    (h1 : ∀ k : Fin 128, x1 (ix2 k q) = W (ix2 k q))
    (h2 : x2 (ix2 p 0) = D (ix2 r 0)) :
    (k0_pay1 (F := Ideal) x0 x1 x2 : FVec Ideal S2000x128 .f32) (ix2 p q) = Cert.Spec.mmScale X W D (ix2 r q) := by
  rw [pay0_apply, h2]
  show _ = (∑ k : Fin 128, X (ix2 r k) * W (ix2 k q)) * D (ix2 r 0)
  refine congrArg (· * D (ix2 r 0)) (Finset.sum_congr rfl fun k _ => ?_)
  rw [h0 k, h1 k]

section Tiles

variable (V : (c : Dev nD) → (b : Ref sig .tc) → Buf (Elt Ideal) ((c : Thread nD τ).loc b))

theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

theorem flushed0_eq (c : Dev nD) (t : Fin cfg0.N) :
    (dat0 (F := Ideal) V c).flushed 3 t
      = ((cfg0.win 3).blk t).view.read (Elt Ideal) (Cert.Spec.mmScale (V c main_arg0) (V c main_arg1) (V c main_v11)) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x128) hz0, View.ld_unit_zero (S := S2000x1) hz0]
  funext j
  obtain ⟨p, q, rfl⟩ : ∃ (p : Fin 2000) (q : Fin 128), j = ix2 p q := ⟨j 0, j 1, eq_ix2 j⟩
  obtain ⟨e0, e1, e2, e3, e4, e5, e6, e7⟩ := idx_facts0 t
  have ht : t.val < 50 := lt_of_lt_of_eq t.isLt N_0
  have hp : p.val < 2000 := p.isLt
  have hr : ((cfg0.win 3).blk t).view.emb (ix2 p q) = ix2 (⟨2000 * t.val + p.val, by omega⟩ : Fin 100000) q :=
    ix2_ext (by show win0_3.index t (0 : Fin 2) * 2000 + 1 * p.val = 2000 * t.val + p.val; omega) (by show win0_3.index t (1 : Fin 2) * 128 + 1 * q.val = q.val; omega)
  refine (tile0_eq (V c main_arg0) (V c main_arg1) (V c main_v11) (iblk0 V c 0 t) (iblk0 V c 1 t) (iblk0 V c 2 t) p q
    ⟨2000 * t.val + p.val, by omega⟩ (fun k => ?_) (fun k => ?_) ?_).trans
      (congrArg (Cert.Spec.mmScale (V c main_arg0) (V c main_arg1) (V c main_v11)) hr.symm)
  · show V c main_arg0 (((cfg0.win 0).blk t).view.emb (ix2 p k)) = V c main_arg0 _
    exact congrArg (V c main_arg0) (ix2_ext (by show win0_0.index t (0 : Fin 2) * 2000 + 1 * p.val = 2000 * t.val + p.val; omega) (by show win0_0.index t (1 : Fin 2) * 128 + 1 * k.val = k.val; omega))
  · show V c main_arg1 (((cfg0.win 1).blk t).view.emb (ix2 k q)) = V c main_arg1 _
    exact congrArg (V c main_arg1) (ix2_ext (by show win0_1.index t (0 : Fin 2) * 128 + 1 * k.val = k.val; omega) (by show win0_1.index t (1 : Fin 2) * 128 + 1 * q.val = q.val; omega))
  · show V c main_v11 (((cfg0.win 2).blk t).view.emb (ix2 p 0)) = V c main_v11 _
    exact congrArg (V c main_v11) (ix2_ext (by show win0_2.index t (0 : Fin 2) * 2000 + 1 * p.val = 2000 * t.val + p.val; omega) (by show win0_2.index t (1 : Fin 2) * 1 + 1 * 0 = 0; omega))

theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12).slice (win0_3.rect t)).set ↔ _
  rw [View.set_slice_whole, Rect.mem_set_unit]
  exact Iff.rfl

theorem cover0 (i : S100000x128.Idx) : ∃ t : Fin cfg0.N, (cfg0.win 3).flush t = true ∧ i ∈ ((cfg0.win 3).blk t).view.set :=
  (cover_rows N_0 (fun t => ((cfg0.win 3).blk t).view.set) win0_3.index mem_blk0 (fun t => (idx_facts0 t).2.2.2.2.2.2.1)
    (fun t => (idx_facts0 t).2.2.2.2.2.2.2) i).imp fun t h => ⟨flush0_3 t, h⟩

end Tiles

/-- Every tile is the scaled product read at the tile's rows and the fifty tiles cover the array. -/
theorem arr0 (V : (c : Dev nD) → (b : Ref sig .tc) → Buf (Elt Ideal) ((c : Thread nD τ).loc b)) (c : Dev nD) :
    (dat0 (F := Ideal) V c).arrAt 3 cfg0.N = Cert.Spec.mmScale (V c main_arg0) (V c main_arg1) (V c main_v11) :=
  (dat0 (F := Ideal) V c).arrAt_eq_of_cover 3 (Cert.Spec.mmScale (V c main_arg0) (V c main_arg1) (V c main_v11))
    (fun t _ => flushed0_eq V c t) cover0

end Cert.KernelIdeal.Hand

end
-- ==== Proof.KI.Val1.lean ====
import proofs.«427324_j33749853012495_3_alg».proof.Proof.KI.Reg1
import proofs.«427324_j33749853012495_3_alg».proof.Proof.KI.ValTile
import proofs.«427324_j33749853012495_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem colSpread1 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem zeroOff1 : (![0, 0] : Fin 2 → Nat) = fun _ => 0 := funext fun a => by fin_cases a <;> rfl

/-- The body's value at an entry: the row's factor times the sum of aggregate and self term, plus the bias, clipped at zero. -/
theorem pay1_at (v0 : Vec Ideal S2000x1 .f32) (v2 v4 : Vec Ideal S2000x128 .f32) (v9 : Vec Ideal S1x128 .f32)
    (p : Fin 2000) (q : Fin 128) :
    k1_pay1 (F := Ideal) v0 v2 v4 v9 (ix2 p q)
      = max (v0 (ix2 p (0 : Fin 1)) * (v2 (ix2 p q) + v4 (ix2 p q)) + v9 (ix2 (0 : Fin 1) q)) 0 := by
  unfold k1_pay1
  rw [maximumf_apply, addf_apply, mulf_apply, addf_apply, broadcast_apply]
  rw [shapeCast_self, shapeCast_self, shapeCast_self, shapeCast_self, colSpread1, broadcastTo_1b_ab_apply]
  show max _ (Ideal.ofBits .f32 0x00000000#32) = _
  rw [Ideal.ofBits_zero_f32]

section Tiles

variable (V : (c : Dev nD) → (b : Ref sig .tc) → Buf (Elt Ideal) ((c : Thread nD τ).loc b))

theorem lt1_50 (t : Fin cfg1.N) : t.val < 50 := lt_of_lt_of_eq t.isLt N_1

theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

def row1 (t : Fin cfg1.N) (p : Fin 2000) : Fin 100000 :=
  ⟨t.val * 2000 + p.val, by have := lt1_50 t; have := p.isLt; omega⟩

theorem blk1_0_at (c : Dev nD) (t : Fin cfg1.N) (p : Fin 2000) (q : Fin 128) :
    (iblk1 V c 0 t : Vec Ideal S2000x128 .f32) (ix2 p q)
      = (V c main_v22 : S100000x128.Idx → EReal) (ix2 (row1 t p) q) := by
  obtain ⟨e0, e1, -⟩ := idx1_facts t
  unfold iblk1
  rw [View.read_apply]
  exact congrArg (V c main_v22) (ix2_ext (by show win1_0.index t (0 : Fin 2) * 2000 + 1 * p.val = t.val * 2000 + p.val; rw [e0]; omega) (by show win1_0.index t (1 : Fin 2) * 128 + 1 * q.val = q.val; rw [e1]; omega))

theorem blk1_1_at (c : Dev nD) (t : Fin cfg1.N) (p : Fin 2000) (q : Fin 128) :
    (iblk1 V c 1 t : Vec Ideal S2000x128 .f32) (ix2 p q)
      = (V c main_v12 : S100000x128.Idx → EReal) (ix2 (row1 t p) q) := by
  obtain ⟨-, -, e2, e3, -⟩ := idx1_facts t
  unfold iblk1
  rw [View.read_apply]
  exact congrArg (V c main_v12) (ix2_ext (by show win1_1.index t (0 : Fin 2) * 2000 + 1 * p.val = t.val * 2000 + p.val; rw [e2]; omega) (by show win1_1.index t (1 : Fin 2) * 128 + 1 * q.val = q.val; rw [e3]; omega))

theorem blk1_2_at (c : Dev nD) (t : Fin cfg1.N) (p : Fin 2000) :
    (iblk1 V c 2 t : Vec Ideal S2000x1 .f32) (ix2 p (0 : Fin 1))
      = (V c main_v11 : S100000x1.Idx → EReal) (ix2 (row1 t p) (0 : Fin 1)) := by
  obtain ⟨-, -, -, -, e4, e5, -⟩ := idx1_facts t
  unfold iblk1
  rw [View.read_apply]
  exact congrArg (V c main_v11) (ix2_ext (by show win1_2.index t (0 : Fin 2) * 2000 + 1 * p.val = t.val * 2000 + p.val; rw [e4]; omega) (by show win1_2.index t (1 : Fin 2) * 1 + 1 * 0 = 0; rw [e5]))

theorem blk1_3_at (c : Dev nD) (t : Fin cfg1.N) (q : Fin 128) :
    (iblk1 V c 3 t : Vec Ideal S1x128 .f32) (ix2 (0 : Fin 1) q)
      = (V c main_v23 : S1x128.Idx → EReal) (ix2 (0 : Fin 1) q) := by
  obtain ⟨-, -, -, -, -, -, e6, e7, -⟩ := idx1_facts t
  unfold iblk1
  rw [View.read_apply]
  exact congrArg (V c main_v23) (ix2_ext (by show win1_3.index t (0 : Fin 2) * 1 + 1 * 0 = 0; rw [e6]) (by show win1_3.index t (1 : Fin 2) * 128 + 1 * q.val = q.val; rw [e7]; omega))

theorem emb1_4 (t : Fin cfg1.N) (p : Fin 2000) (q : Fin 128) :
    ((cfg1.win 4).blk t).view.emb (ix2 p q) = (ix2 (row1 t p) q : S100000x128.Idx) := by
  obtain ⟨-, -, -, -, -, -, -, -, e8, e9⟩ := idx1_facts t
  exact ix2_ext (by show win1_4.index t (0 : Fin 2) * 2000 + 1 * p.val = t.val * 2000 + p.val; rw [e8]; omega) (by show win1_4.index t (1 : Fin 2) * 128 + 1 * q.val = q.val; rw [e9]; omega)

theorem flushed1_eq (c : Dev nD) (t : Fin cfg1.N) :
    (dat1 (F := Ideal) V c).flushed 4 t
      = ((cfg1.win 4).blk t).view.read (Elt Ideal)
          (Cert.Spec.epi (V c main_v22) (V c main_v12) (V c main_v11) (V c main_v23)) := by
  show (cfg1.win 4).cut (grid1.coords t) ((dat1 V c).after 4 t) = _
  rw [after1_4]
  unfold out1_4
  rw [View.canon_unit_zero zeroOff1]
  simp only [View.ld_unit_zero (S := S2000x128) zeroOff1, View.ld_unit_zero (S := S2000x1) zeroOff1,
    View.ld_unit_zero (S := S1x128) zeroOff1]
  funext j
  obtain ⟨p, q, rfl⟩ : ∃ (p : Fin 2000) (q : Fin 128), j = ix2 p q := ⟨j 0, j 1, eq_ix2 j⟩
  rw [View.read_apply]
  show k1_pay1 (iblk1 V c 2 t) (iblk1 V c 0 t) (iblk1 V c 1 t) (iblk1 V c 3 t) (ix2 p q)
    = Cert.Spec.epi (V c main_v22) (V c main_v12) (V c main_v11) (V c main_v23)
        (((cfg1.win 4).blk t).view.emb (ix2 p q))
  rw [emb1_4 t p q, pay1_at, blk1_0_at, blk1_1_at, blk1_2_at, blk1_3_at]
  rfl

theorem mem_blk1 (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v24).slice (win1_4.rect t)).set ↔ _
  rw [View.set_slice_whole, Rect.mem_set_unit]
  exact Iff.rfl

theorem cover1 (i : S100000x128.Idx) :
    ∃ t : Fin cfg1.N, (cfg1.win 4).flush t = true ∧ i ∈ ((cfg1.win 4).blk t).view.set :=
  (cover_rows N_1 (fun t => ((cfg1.win 4).blk t).view.set) win1_4.index mem_blk1 (fun t => (idx1_facts t).2.2.2.2.2.2.2.2.1)
    (fun t => (idx1_facts t).2.2.2.2.2.2.2.2.2) i).imp fun t h => ⟨flush1_4 t, h⟩

end Tiles

theorem arr1 (V : (c : Dev nD) → (b : Ref sig .tc) → Buf (Elt Ideal) ((c : Thread nD τ).loc b)) (c : Dev nD) :
    (dat1 (F := Ideal) V c).arrAt 4 cfg1.N
      = Cert.Spec.epi (V c main_v22) (V c main_v12) (V c main_v11) (V c main_v23) :=
  (dat1 (F := Ideal) V c).arrAt_eq_of_cover 4 _ (fun t _ => flushed1_eq V c t) cover1

end Cert.KernelIdeal.Hand

end
-- ==== Proof.KI.Val2.lean ====
import proofs.«427324_j33749853012495_3_alg».proof.Proof.KI.Reg2
import proofs.«427324_j33749853012495_3_alg».proof.Proof.KI.Val0

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The third launch's tile value is the first launch's: the extra reshape to the same shape is the identity. -/
theorem pay2_eq (x0 : Vec Ideal S2000x128 .f32) (x1 : Vec Ideal S128x128 .f32) (x2 : Vec Ideal S2000x1 .f32) :
    k2_pay1 (F := Ideal) x0 x1 x2 = k0_pay1 (F := Ideal) x0 x1 x2 := by
  unfold k2_pay1 k0_pay1; rw [shapeCast_self (s := S2000x128)]

section Tiles

variable (V : (c : Dev nD) → (b : Ref sig .tc) → Buf (Elt Ideal) ((c : Thread nD τ).loc b))

theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0 :=
  (by decide +kernel : ∀ t : Fin grid2.N, _)

theorem flushed2_eq (c : Dev nD) (t : Fin cfg2.N) :
    (dat2 (F := Ideal) V c).flushed 3 t
      = ((cfg2.win 3).blk t).view.read (Elt Ideal) (Cert.Spec.mmScale (V c main_v24) (V c main_arg3) (V c main_v11)) := by
  show (cfg2.win 3).cut (grid2.coords t) ((dat2 V c).after 3 t) = _
  rw [after2_3]
  unfold out2_3
  rw [View.canon_unit_zero hz0]
  simp only [View.ld_unit_zero (S := S2000x128) hz0, View.ld_unit_zero (S := S128x128) hz0, View.ld_unit_zero (S := S2000x1) hz0]
  funext j
  obtain ⟨p, q, rfl⟩ : ∃ (p : Fin 2000) (q : Fin 128), j = ix2 p q := ⟨j 0, j 1, eq_ix2 j⟩
  obtain ⟨e0, e1, e2, e3, e4, e5, e6, e7⟩ := idx_facts2 t
  have ht : t.val < 50 := lt_of_lt_of_eq t.isLt N_2
  have hp : p.val < 2000 := p.isLt
  have hr : ((cfg2.win 3).blk t).view.emb (ix2 p q) = ix2 (⟨2000 * t.val + p.val, by omega⟩ : Fin 100000) q :=
    ix2_ext (by show win2_3.index t (0 : Fin 2) * 2000 + 1 * p.val = 2000 * t.val + p.val; omega) (by show win2_3.index t (1 : Fin 2) * 128 + 1 * q.val = q.val; omega)
  refine ((congrFun (pay2_eq (iblk2 V c 0 t) (iblk2 V c 1 t) (iblk2 V c 2 t)) (ix2 p q)).trans
    (tile0_eq (V c main_v24) (V c main_arg3) (V c main_v11) (iblk2 V c 0 t) (iblk2 V c 1 t) (iblk2 V c 2 t) p q
      ⟨2000 * t.val + p.val, by omega⟩ (fun k => ?_) (fun k => ?_) ?_)).trans
      (congrArg (Cert.Spec.mmScale (V c main_v24) (V c main_arg3) (V c main_v11)) hr.symm)
  · show V c main_v24 (((cfg2.win 0).blk t).view.emb (ix2 p k)) = V c main_v24 _
    exact congrArg (V c main_v24) (ix2_ext (by show win2_0.index t (0 : Fin 2) * 2000 + 1 * p.val = 2000 * t.val + p.val; omega) (by show win2_0.index t (1 : Fin 2) * 128 + 1 * k.val = k.val; omega))
  · show V c main_arg3 (((cfg2.win 1).blk t).view.emb (ix2 k q)) = V c main_arg3 _
    exact congrArg (V c main_arg3) (ix2_ext (by show win2_1.index t (0 : Fin 2) * 128 + 1 * k.val = k.val; omega) (by show win2_1.index t (1 : Fin 2) * 128 + 1 * q.val = q.val; omega))
  · show V c main_v11 (((cfg2.win 2).blk t).view.emb (ix2 p 0)) = V c main_v11 _
    exact congrArg (V c main_v11) (ix2_ext (by show win2_2.index t (0 : Fin 2) * 2000 + 1 * p.val = 2000 * t.val + p.val; omega) (by show win2_2.index t (1 : Fin 2) * 1 + 1 * 0 = 0; omega))

theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v25).slice (win2_3.rect t)).set ↔ _
  rw [View.set_slice_whole, Rect.mem_set_unit]
  exact Iff.rfl

theorem cover2 (i : S100000x128.Idx) : ∃ t : Fin cfg2.N, (cfg2.win 3).flush t = true ∧ i ∈ ((cfg2.win 3).blk t).view.set :=
  (cover_rows N_2 (fun t => ((cfg2.win 3).blk t).view.set) win2_3.index mem_blk2 (fun t => (idx_facts2 t).2.2.2.2.2.2.1)
    (fun t => (idx_facts2 t).2.2.2.2.2.2.2) i).imp fun t h => ⟨flush2_3 t, h⟩

end Tiles

theorem arr2 (V : (c : Dev nD) → (b : Ref sig .tc) → Buf (Elt Ideal) ((c : Thread nD τ).loc b)) (c : Dev nD) :
    (dat2 (F := Ideal) V c).arrAt 3 cfg2.N = Cert.Spec.mmScale (V c main_v24) (V c main_arg3) (V c main_v11) :=
  (dat2 (F := Ideal) V c).arrAt_eq_of_cover 3 (Cert.Spec.mmScale (V c main_v24) (V c main_arg3) (V c main_v11))
    (fun t _ => flushed2_eq V c t) cover2

end Cert.KernelIdeal.Hand

end
-- ==== Proof.KI.Val3.lean ====
import proofs.«427324_j33749853012495_3_alg».proof.Proof.KI.Reg3
import proofs.«427324_j33749853012495_3_alg».proof.Proof.KI.Val1

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Tiles

variable (V : (c : Dev nD) → (b : Ref sig .tc) → Buf (Elt Ideal) ((c : Thread nD τ).loc b))

theorem lt3_50 (t : Fin cfg3.N) : t.val < 50 := lt_of_lt_of_eq t.isLt N_3

theorem idx3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

def row3 (t : Fin cfg3.N) (p : Fin 2000) : Fin 100000 :=
  ⟨t.val * 2000 + p.val, by have := lt3_50 t; have := p.isLt; omega⟩

theorem blk3_0_at (c : Dev nD) (t : Fin cfg3.N) (p : Fin 2000) (q : Fin 128) :
    (iblk3 V c 0 t : Vec Ideal S2000x128 .f32) (ix2 p q)
      = (V c main_v35 : S100000x128.Idx → EReal) (ix2 (row3 t p) q) := by
  obtain ⟨e0, e1, -⟩ := idx3_facts t
  unfold iblk3
  rw [View.read_apply]
  exact congrArg (V c main_v35) (ix2_ext (by show win3_0.index t (0 : Fin 2) * 2000 + 1 * p.val = t.val * 2000 + p.val; rw [e0]; omega) (by show win3_0.index t (1 : Fin 2) * 128 + 1 * q.val = q.val; rw [e1]; omega))

theorem blk3_1_at (c : Dev nD) (t : Fin cfg3.N) (p : Fin 2000) (q : Fin 128) :
    (iblk3 V c 1 t : Vec Ideal S2000x128 .f32) (ix2 p q)
      = (V c main_v25 : S100000x128.Idx → EReal) (ix2 (row3 t p) q) := by
  obtain ⟨-, -, e2, e3, -⟩ := idx3_facts t
  unfold iblk3
  rw [View.read_apply]
  exact congrArg (V c main_v25) (ix2_ext (by show win3_1.index t (0 : Fin 2) * 2000 + 1 * p.val = t.val * 2000 + p.val; rw [e2]; omega) (by show win3_1.index t (1 : Fin 2) * 128 + 1 * q.val = q.val; rw [e3]; omega))

theorem blk3_2_at (c : Dev nD) (t : Fin cfg3.N) (p : Fin 2000) :
    (iblk3 V c 2 t : Vec Ideal S2000x1 .f32) (ix2 p (0 : Fin 1))
      = (V c main_v11 : S100000x1.Idx → EReal) (ix2 (row3 t p) (0 : Fin 1)) := by
  obtain ⟨-, -, -, -, e4, e5, -⟩ := idx3_facts t
  unfold iblk3
  rw [View.read_apply]
  exact congrArg (V c main_v11) (ix2_ext (by show win3_2.index t (0 : Fin 2) * 2000 + 1 * p.val = t.val * 2000 + p.val; rw [e4]; omega) (by show win3_2.index t (1 : Fin 2) * 1 + 1 * 0 = 0; rw [e5]))

theorem blk3_3_at (c : Dev nD) (t : Fin cfg3.N) (q : Fin 128) :
    (iblk3 V c 3 t : Vec Ideal S1x128 .f32) (ix2 (0 : Fin 1) q)
      = (V c main_v36 : S1x128.Idx → EReal) (ix2 (0 : Fin 1) q) := by
  obtain ⟨-, -, -, -, -, -, e6, e7, -⟩ := idx3_facts t
  unfold iblk3
  rw [View.read_apply]
  exact congrArg (V c main_v36) (ix2_ext (by show win3_3.index t (0 : Fin 2) * 1 + 1 * 0 = 0; rw [e6]) (by show win3_3.index t (1 : Fin 2) * 128 + 1 * q.val = q.val; rw [e7]; omega))

theorem emb3_4 (t : Fin cfg3.N) (p : Fin 2000) (q : Fin 128) :
    ((cfg3.win 4).blk t).view.emb (ix2 p q) = (ix2 (row3 t p) q : S100000x128.Idx) := by
  obtain ⟨-, -, -, -, -, -, -, -, e8, e9⟩ := idx3_facts t
  exact ix2_ext (by show win3_4.index t (0 : Fin 2) * 2000 + 1 * p.val = t.val * 2000 + p.val; rw [e8]; omega) (by show win3_4.index t (1 : Fin 2) * 128 + 1 * q.val = q.val; rw [e9]; omega)

theorem flushed3_eq (c : Dev nD) (t : Fin cfg3.N) :
    (dat3 (F := Ideal) V c).flushed 4 t
      = ((cfg3.win 4).blk t).view.read (Elt Ideal)
          (Cert.Spec.epi (V c main_v35) (V c main_v25) (V c main_v11) (V c main_v36)) := by
  show (cfg3.win 4).cut (grid3.coords t) ((dat3 V c).after 4 t) = _
  rw [after3_4]
  unfold out1_4
  rw [View.canon_unit_zero zeroOff1]
  simp only [View.ld_unit_zero (S := S2000x128) zeroOff1, View.ld_unit_zero (S := S2000x1) zeroOff1,
    View.ld_unit_zero (S := S1x128) zeroOff1]
  funext j
  obtain ⟨p, q, rfl⟩ : ∃ (p : Fin 2000) (q : Fin 128), j = ix2 p q := ⟨j 0, j 1, eq_ix2 j⟩
  rw [View.read_apply]
  show k1_pay1 (iblk3 V c 2 t) (iblk3 V c 0 t) (iblk3 V c 1 t) (iblk3 V c 3 t) (ix2 p q)
    = Cert.Spec.epi (V c main_v35) (V c main_v25) (V c main_v11) (V c main_v36)
        (((cfg3.win 4).blk t).view.emb (ix2 p q))
  rw [emb3_4 t p q, pay1_at, blk3_0_at, blk3_1_at, blk3_2_at, blk3_3_at]
  rfl

theorem mem_blk3 (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v37).slice (win3_4.rect t)).set ↔ _
  rw [View.set_slice_whole, Rect.mem_set_unit]
  exact Iff.rfl

theorem cover3 (i : S100000x128.Idx) :
    ∃ t : Fin cfg3.N, (cfg3.win 4).flush t = true ∧ i ∈ ((cfg3.win 4).blk t).view.set :=
  (cover_rows N_3 (fun t => ((cfg3.win 4).blk t).view.set) win3_4.index mem_blk3 (fun t => (idx3_facts t).2.2.2.2.2.2.2.2.1)
    (fun t => (idx3_facts t).2.2.2.2.2.2.2.2.2) i).imp fun t h => ⟨flush3_4 t, h⟩

end Tiles

theorem arr3 (V : (c : Dev nD) → (b : Ref sig .tc) → Buf (Elt Ideal) ((c : Thread nD τ).loc b)) (c : Dev nD) :
    (dat3 (F := Ideal) V c).arrAt 4 cfg3.N
      = Cert.Spec.epi (V c main_v35) (V c main_v25) (V c main_v11) (V c main_v36) :=
  (dat3 (F := Ideal) V c).arrAt_eq_of_cover 4 _ (fun t _ => flushed3_eq V c t) cover3

end Cert.KernelIdeal.Hand

end
-- ==== Proof.KI.Val4Pay.lean ====
import proofs.«427324_j33749853012495_3_alg».proof.Proof.Gen.KernelIdeal.Skeleton
import proofs.«427324_j33749853012495_3_alg».proof.Proof.Spec
import Idealize.ShloMosaic.Lib.Pipeline.Value
import Idealize.ShloMosaic.Lib.IdealHost
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.ValueIdx

theorem pay4_1_apply (g : Fin 64) (k : Fin 128) : k4_pay1 (F := Ideal) (ix2 g k) = 0 := by
  unfold k4_pay1
  rw [shapeCast_self]
  exact Ideal.ofBits_zero_f32

theorem pay4_2_apply (g : Fin 64) : k4_pay2 (F := Ideal) (ix2 g 0) = 0 := by
  unfold k4_pay2
  rw [shapeCast_self]
  exact Ideal.ofBits_zero_f32

theorem eq_word_toInt (x y : BitVec 32) :
    (((IntOp.cmpi .eq x y).setWidth 32).toInt : ℝ) = if x = y then 1 else 0 := by
  by_cases h : x = y
  · subst h
    rw [if_pos rfl]
    have : IntOp.cmpi .eq x x = 1#1 := by simp [IntOp.cmpi]
    rw [this]
    norm_num
  · rw [if_neg h]
    have hb : (x == y) = false := beq_eq_false_iff_ne.mpr h
    have : IntOp.cmpi .eq x y = 0#1 := by
      show BitVec.ofBool (x == y) = 0#1
      rw [hb]; rfl
    rw [this]
    norm_num

theorem idcol_apply (v3 : Vec Ideal S5000x1 .i32) (r : Fin 5000) (g : Fin 64) :
    (broadcastTo S5000x64 v3 broadcasts_S5000x1_S5000x64 : IVec S5000x64 32) (ix2 r g) = v3 (ix2 r 0) := by
  refine broadcastTo_apply v3 broadcasts_S5000x1_S5000x64 (ix2 r g) (ix2 r 0) fun a => ?_
  match a with
  | ⟨0, _⟩ => rfl
  | ⟨1, _⟩ => rfl

theorem gcount_apply (r : Fin 5000) (g : Fin 64) :
    (iota .tc S5000x64 32 [1] iota_S5000x64_d1_w32 : IVec S5000x64 32) (ix2 r g) = BitVec.ofNat 32 g.val :=
  iota_single_apply .tc S5000x64 32 1 iota_S5000x64_d1_w32 (ix2 r g)

/-- The membership tile at (r, g): one when row r's graph id is g, else zero. -/
theorem pay4_3_apply (v3 : Vec Ideal S5000x1 .i32) (r : Fin 5000) (g : Fin 64) :
    k4_pay3 (F := Ideal) v3 (ix2 r g) = Cert.Spec.member (v3 (ix2 r 0)) g := by
  unfold k4_pay3
  rw [shapeCast_self]
  show ((((IntOp.cmpi .eq ((broadcastTo S5000x64 v3 broadcasts_S5000x1_S5000x64 : IVec S5000x64 32) (ix2 r g))
    ((iota .tc S5000x64 32 [1] iota_S5000x64_d1_w32 : IVec S5000x64 32) (ix2 r g))).setWidth 32).toInt : ℝ) : EReal)
      = Cert.Spec.member (v3 (ix2 r 0)) g
  rw [idcol_apply, gcount_apply, eq_word_toInt]
  unfold Cert.Spec.member
  by_cases h : v3 (ix2 r 0) = BitVec.ofNat 32 g.val
  · rw [if_pos h, if_pos h]; rfl
  · rw [if_neg h, if_neg h]; rfl

/-- A product contracting the first axis of both operands into a zero accumulator, at (g, k): the sum over that axis. -/
theorem mmT_apply {n a b : ℕ} {φ₁ φ₂ : FTy} (d : DotDims ⟨2, ![n, a]⟩ ⟨2, ![n, b]⟩ ⟨2, ![a, b]⟩)
    (hr : d.contr.rank = 1) (hs : d.contr.size ⟨0, by omega⟩ = n) (hcl : d.lhsContracting = [0]) (hcr : d.rhsContracting = [0])
    (hl : ∀ i q, (d.lhsIdx i q 1).val = (i 0).val) (hrr : ∀ i q, (d.rhsIdx i q 1).val = (i 1).val)
    (x : FVec Ideal ⟨2, ![n, a]⟩ φ₁) (y : FVec Ideal ⟨2, ![n, b]⟩ φ₂) (g : Fin a) (k : Fin b) :
    (matmul d none x y (constant ⟨2, ![a, b]⟩ .f32 0x00000000#32) : FVec Ideal ⟨2, ![a, b]⟩ .f32) (ix2 g k)
      = ∑ r : Fin n, x (ix2 r g) * y (ix2 r k) := by
  refine (Ideal.matmul_constant_zero_apply d none _ _ (ix2 g k)).trans ?_
  rw [← Equiv.sum_comp (contrEquiv1 d n hr hs).symm]
  refine Finset.sum_congr rfl fun r _ => ?_
  have h0 := contrEquiv1_symm_val d n hr hs r
  have el : d.lhsIdx (ix2 g k) ((contrEquiv1 d n hr hs).symm r) = ix2 r g := funext fun a => Fin.ext (by
    match a with
    | ⟨0, _⟩ => exact (d.lhsIdx_val_of_single hcl _ _).trans h0
    | ⟨1, _⟩ => exact hl _ _)
  have er : d.rhsIdx (ix2 g k) ((contrEquiv1 d n hr hs).symm r) = ix2 r k := funext fun a => Fin.ext (by
    match a with
    | ⟨0, _⟩ => exact (d.rhsIdx_val_of_single hcr _ _).trans h0
    | ⟨1, _⟩ => exact hrr _ _)
  rw [el, er]

theorem mmPool_apply (v3 : Vec Ideal S5000x1 .i32) (x : Vec Ideal S5000x128 .f32) (g : Fin 64) (k : Fin 128) :
    (matmul dot_S5000x64_S5000x128_S64x128_0_0_1_1_n_n none (k4_pay3 (F := Ideal) v3)
        (truncf .bf16 x bitsLt_bf16_f32 : FVec Ideal S5000x128 .bf16) (constant S64x128 .f32 0x00000000#32) : FVec Ideal S64x128 .f32) (ix2 g k)
      = ∑ r : Fin 5000, Cert.Spec.member (v3 (ix2 r 0)) g * x (ix2 r k) := by
  refine (mmT_apply dot_S5000x64_S5000x128_S64x128_0_0_1_1_n_n rfl rfl rfl rfl
    (fun i q => by unfold DotDims.lhsIdx; rw [dif_neg, dif_pos] <;> first | rfl | decide)
    (fun i q => by unfold DotDims.rhsIdx; rw [dif_neg, dif_pos] <;> first | rfl | decide) _ _ g k).trans ?_
  exact Finset.sum_congr rfl fun r _ => by rw [pay4_3_apply]; rfl

theorem pay4_4_apply (v3 : Vec Ideal S5000x1 .i32) (v11 : Vec Ideal S5000x128 .f32) (v17 : Vec Ideal S64x128 .f32)
    (g : Fin 64) (k : Fin 128) :
    k4_pay4 (F := Ideal) v3 v11 v17 (ix2 g k)
      = v17 (ix2 g k) + ∑ r : Fin 5000, Cert.Spec.member (v3 (ix2 r 0)) g * v11 (ix2 r k) := by
  unfold k4_pay4
  rw [shapeCast_self, shapeCast_self]
  refine (addf_apply _ _ (ix2 g k)).trans ?_
  rw [mmPool_apply]

theorem mmCnt_apply (v3 : Vec Ideal S5000x1 .i32) (c : FVec Ideal S5000x1 .bf16) (g : Fin 64) :
    (matmul dot_S5000x64_S5000x1_S64x1_0_0_1_1_n_n none (k4_pay3 (F := Ideal) v3) c
        (constant S64x1 .f32 0x00000000#32) : FVec Ideal S64x1 .f32) (ix2 g 0)
      = ∑ r : Fin 5000, Cert.Spec.member (v3 (ix2 r 0)) g * c (ix2 r 0) := by
  refine (mmT_apply dot_S5000x64_S5000x1_S64x1_0_0_1_1_n_n rfl rfl rfl rfl
    (fun i q => by unfold DotDims.lhsIdx; rw [dif_neg, dif_pos] <;> first | rfl | decide)
    (fun i q => by unfold DotDims.rhsIdx; rw [dif_neg, dif_pos] <;> first | rfl | decide) _ _ g 0).trans ?_
  exact Finset.sum_congr rfl fun r _ => by rw [pay4_3_apply]

theorem pay4_5_apply (v3 : Vec Ideal S5000x1 .i32) (v22 : Vec Ideal S64x1 .f32) (g : Fin 64) :
    k4_pay5 (F := Ideal) v3 v22 (ix2 g 0)
      = v22 (ix2 g 0) + ∑ r : Fin 5000, Cert.Spec.member (v3 (ix2 r 0)) g * 1 := by
  unfold k4_pay5
  rw [shapeCast_self]
  refine (addf_apply _ _ (ix2 g 0)).trans ?_
  rw [mmCnt_apply]
  show v22 (ix2 g 0) + ∑ r : Fin 5000, Cert.Spec.member (v3 (ix2 r 0)) g * Ideal.ofBits .bf16 0x3F80#16 = _
  rw [Ideal.ofBits_one_bf16]

theorem gcol_apply (c : FVec Ideal S64x1 .f32) (g : Fin 64) (k : Fin 128) :
    (broadcastTo S64x128 c broadcasts_S64x1_S64x128 : FVec Ideal S64x128 .f32) (ix2 g k) = c (ix2 g 0) := by
  refine broadcastTo_apply c broadcasts_S64x1_S64x128 (ix2 g k) (ix2 g 0) fun a => ?_
  match a with
  | ⟨0, _⟩ => rfl
  | ⟨1, _⟩ => rfl

theorem pay4_6_apply (v30 : Vec Ideal S64x128 .f32) (v31 : Vec Ideal S64x1 .f32) (g : Fin 64) (k : Fin 128) :
    k4_pay6 (F := Ideal) v30 v31 (ix2 g k) = Ideal.div (v30 (ix2 g k)) (max (v31 (ix2 g 0)) 1) := by
  unfold k4_pay6
  refine (divf_apply _ _ (ix2 g k)).trans ?_
  rw [gcol_apply]
  show Ideal.div (v30 (ix2 g k)) (max (v31 (ix2 g 0)) (Ideal.ofBits .f32 0x3F800000#32)) = _
  rw [Ideal.ofBits_one_f32]

theorem sum_tiles (f : Fin 100000 → EReal) :
    ∑ n : Fin 100000, f n = ∑ t : Fin 20, ∑ r : Fin 5000, f ⟨5000 * t.val + r.val, by omega⟩ := by
  rw [← Fintype.sum_prod_type' (f := fun (t : Fin 20) (r : Fin 5000) => f ⟨5000 * t.val + r.val, by omega⟩)]
  exact ((finProdFinEquiv (m := 20) (n := 5000)).sum_comp f).symm.trans
    (Finset.sum_congr rfl fun p _ => congrArg f (Fin.ext (Nat.add_comm _ _)))

end Cert.KernelIdeal.Hand

end
-- ==== Proof.KI.Val4.lean ====
import proofs.«427324_j33749853012495_3_alg».proof.Proof.KI.Reg4
import proofs.«427324_j33749853012495_3_alg».proof.Proof.KI.Val4Pay

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Pieces
variable {F : FTy → Type} [FloatOps F]

theorem hz4 : (![0, 0] : Fin 2 → Nat) = fun _ => 0 := funext fun a => by fin_cases a <;> rfl

variable (c : Dev nD) (i : grid4.Coords) (arg1 : Memref sig .tc .vmem S5000x1 .i32) (harg1 : arg1.IsWhole) (arg2 : Memref sig .tc .vmem S5000x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole)

section
variable (hc0 : cond4_0 i) (hc1 : ¬cond4_1 i) (x0 : Vec F S5000x1 .i32) (x1 : Vec F S5000x128 .f32)
theorem soutA0_eq :
    sout4_A_0 c i arg1 harg1 arg2 harg2 arg3 harg3 arg4 harg4 arg5 harg5 hc0 hc1 x0 x1 = k4_pay4 x0 x1 k4_pay1 := by
  unfold sout4_A_0
  rw [View.read_writes_eq_canon _ _ _ (scover4_A_0 c i arg1 harg1 arg2 harg2 arg3 harg3 arg4 harg4 arg5 harg5 hc0 hc1 x0 x1)]
  unfold kernelRun4_A
  dsimp only
  sl_unfold_words
  rw [View.canon_cons_unit_zero (S := S64x128) hz4, View.readCov_unit_zero (S := S64x128) _ hz4]
  simp only [View.readAt_eq_ld, harg1.read_unread, harg2.read_unread, View.ld_unit_zero (S := S5000x1) hz4, View.ld_unit_zero (S := S5000x128) hz4]

theorem soutA1_eq :
    sout4_A_1 c i arg1 harg1 arg2 harg2 arg3 harg3 arg4 harg4 arg5 harg5 hc0 hc1 x0 x1 = k4_pay5 x0 k4_pay2 := by
  unfold sout4_A_1
  rw [View.read_writes_eq_canon _ _ _ (scover4_A_1 c i arg1 harg1 arg2 harg2 arg3 harg3 arg4 harg4 arg5 harg5 hc0 hc1 x0 x1)]
  unfold kernelRun4_A
  dsimp only
  sl_unfold_words
  rw [View.canon_cons_unit_zero (S := S64x1) hz4, View.readCov_unit_zero (S := S64x1) _ hz4]
  simp only [View.readAt_eq_ld, harg1.read_unread, View.ld_unit_zero (S := S5000x1) hz4]
end

section
variable (hc0 : ¬cond4_0 i) (hc1 : ¬cond4_1 i) (x0 : Vec F S5000x1 .i32) (x1 : Vec F S5000x128 .f32) (xs0 : Vec F S64x128 .f32) (xs1 : Vec F S64x1 .f32)
theorem soutB0_eq :
    sout4_B_0 c i arg1 harg1 arg2 harg2 arg3 harg3 arg4 harg4 arg5 harg5 hc0 hc1 x0 x1 xs0 xs1 = k4_pay4 x0 x1 xs0 := by
  unfold sout4_B_0
  rw [View.read_writes_eq_canon _ _ _ (scover4_B_0 c i arg1 harg1 arg2 harg2 arg3 harg3 arg4 harg4 arg5 harg5 hc0 hc1 x0 x1 xs0 xs1)]
  unfold kernelRun4_B
  dsimp only
  sl_unfold_words
  rw [View.canon_unit_zero hz4]
  simp only [View.readAt_eq_ld, harg1.read_unread, harg2.read_unread, harg4.read_unread, View.ld_unit_zero (S := S5000x1) hz4, View.ld_unit_zero (S := S5000x128) hz4, View.ld_unit_zero (S := S64x128) hz4]

theorem soutB1_eq :
    sout4_B_1 c i arg1 harg1 arg2 harg2 arg3 harg3 arg4 harg4 arg5 harg5 hc0 hc1 x0 x1 xs0 xs1 = k4_pay5 x0 xs1 := by
  unfold sout4_B_1
  rw [View.read_writes_eq_canon _ _ _ (scover4_B_1 c i arg1 harg1 arg2 harg2 arg3 harg3 arg4 harg4 arg5 harg5 hc0 hc1 x0 x1 xs0 xs1)]
  unfold kernelRun4_B
  dsimp only
  sl_unfold_words
  rw [View.canon_unit_zero hz4]
  simp only [View.readAt_eq_ld, harg1.read_unread, harg5.read_unread, View.ld_unit_zero (S := S5000x1) hz4, View.ld_unit_zero (S := S64x1) hz4]
end

section
variable (hc0 : ¬cond4_0 i) (hc1 : cond4_1 i) (x0 : Vec F S5000x1 .i32) (x1 : Vec F S5000x128 .f32) (xs0 : Vec F S64x128 .f32) (xs1 : Vec F S64x1 .f32)
theorem soutC0_eq :
    sout4_C_0 c i arg1 harg1 arg2 harg2 arg3 harg3 arg4 harg4 arg5 harg5 hc0 hc1 x0 x1 xs0 xs1 = k4_pay4 x0 x1 xs0 := by
  unfold sout4_C_0
  rw [View.read_writes_eq_canon _ _ _ (scover4_C_0 c i arg1 harg1 arg2 harg2 arg3 harg3 arg4 harg4 arg5 harg5 hc0 hc1 x0 x1 xs0 xs1)]
  unfold kernelRun4_C
  dsimp only
  sl_unfold_words
  rw [View.canon_unit_zero hz4]
  simp only [View.readAt_eq_ld, harg1.read_unread, harg2.read_unread, harg4.read_unread, View.ld_unit_zero (S := S5000x1) hz4, View.ld_unit_zero (S := S5000x128) hz4, View.ld_unit_zero (S := S64x128) hz4]

theorem soutC1_eq :
    sout4_C_1 c i arg1 harg1 arg2 harg2 arg3 harg3 arg4 harg4 arg5 harg5 hc0 hc1 x0 x1 xs0 xs1 = k4_pay5 x0 xs1 := by
  unfold sout4_C_1
  rw [View.read_writes_eq_canon _ _ _ (scover4_C_1 c i arg1 harg1 arg2 harg2 arg3 harg3 arg4 harg4 arg5 harg5 hc0 hc1 x0 x1 xs0 xs1)]
  unfold kernelRun4_C
  dsimp only
  sl_unfold_words
  rw [View.canon_unit_zero hz4]
  simp only [View.readAt_eq_ld, harg1.read_unread, harg5.read_unread, View.ld_unit_zero (S := S5000x1) hz4, View.ld_unit_zero (S := S64x1) hz4]

theorem outC2_eq :
    out4_C_2 c i arg1 harg1 arg2 harg2 arg3 harg3 arg4 harg4 arg5 harg5 hc0 hc1 x0 x1 xs0 xs1 = k4_pay6 (k4_pay4 x0 x1 xs0) (k4_pay5 x0 xs1) := by
  unfold out4_C_2
  rw [View.read_writes_eq_canon _ _ _ (cover4_C_2 c i arg1 harg1 arg2 harg2 arg3 harg3 arg4 harg4 arg5 harg5 hc0 hc1 x0 x1 xs0 xs1)]
  unfold kernelRun4_C
  dsimp only
  sl_unfold_words
  rw [View.canon_unit_zero hz4]
  simp only [View.readCov_unit_zero (S := S64x128) _ hz4, View.readCov_unit_zero (S := S64x1) _ hz4, View.readAt_eq_ld, harg1.read_unread, harg2.read_unread, harg4.read_unread, harg5.read_unread, View.ld_unit_zero (S := S5000x1) hz4, View.ld_unit_zero (S := S5000x128) hz4, View.ld_unit_zero (S := S64x128) hz4, View.ld_unit_zero (S := S64x1) hz4]
end

end Pieces

section Steps
variable {F : FTy → Type} [FloatOps F]
variable (V : (c : Dev nD) → (b : Ref sig .tc) → Buf (Elt F) ((c : Thread nD τ).loc b))

abbrev idBlk (c : Dev nD) (t : Fin cfg4.N) : Vec F S5000x1 .i32 := iblk4 V c 0 t
abbrev rowBlk (c : Dev nD) (t : Fin cfg4.N) : Vec F S5000x128 .f32 := iblk4 V c 1 t

theorem accs_first (c : Dev nD) (hn : 0 < cfg4.N) :
    (outsAt4 V c 0 hn).2.1 = k4_pay4 (idBlk V c ⟨0, hn⟩) (rowBlk V c ⟨0, hn⟩) k4_pay1
      ∧ (outsAt4 V c 0 hn).2.2 = k4_pay5 (idBlk V c ⟨0, hn⟩) k4_pay2 := by
  rw [outsAt4_A V c ⟨0, hn⟩ rfl (by show ¬((0 : ℕ) % 20 = 19); decide)]
  unfold outs4_A atPt4
  dsimp only
  exact ⟨soutA0_eq (F := F) .., soutA1_eq (F := F) ..⟩

theorem accs_next (c : Dev nD) (n : ℕ) (hn : n + 1 < cfg4.N) :
    (outsAt4 V c (n + 1) hn).2.1 = k4_pay4 (idBlk V c ⟨n + 1, hn⟩) (rowBlk V c ⟨n + 1, hn⟩) (outsAt4 V c n (Nat.lt_of_succ_lt hn)).2.1
      ∧ (outsAt4 V c (n + 1) hn).2.2 = k4_pay5 (idBlk V c ⟨n + 1, hn⟩) (outsAt4 V c n (Nat.lt_of_succ_lt hn)).2.2 := by
  have hN : n + 1 < 20 := lt_of_lt_of_eq hn (show cfg4.N = 20 from N_4)
  have h0 : ¬(⟨n + 1, hn⟩ : Fin cfg4.N).val % 20 = 0 := by dsimp only; omega
  by_cases h1 : (⟨n + 1, hn⟩ : Fin cfg4.N).val % 20 = 19
  · rw [outsAt4_C V c ⟨n + 1, hn⟩ h0 h1]
    unfold outs4_C atPt4
    dsimp only
    exact ⟨soutC0_eq (F := F) .., soutC1_eq (F := F) ..⟩
  · rw [outsAt4_B V c ⟨n + 1, hn⟩ h0 h1]
    unfold outs4_B atPt4
    dsimp only
    exact ⟨soutB0_eq (F := F) .., soutB1_eq (F := F) ..⟩

theorem res_last (c : Dev nD) (n : ℕ) (hn : n < cfg4.N) (h19 : n = 19) :
    (outsAt4 V c n hn).1 = k4_pay6 (outsAt4 V c n hn).2.1 (outsAt4 V c n hn).2.2 := by
  have h0 : ¬(⟨n, hn⟩ : Fin cfg4.N).val % 20 = 0 := by dsimp only; omega
  have h1 : (⟨n, hn⟩ : Fin cfg4.N).val % 20 = 19 := by dsimp only; omega
  rw [outsAt4_C V c ⟨n, hn⟩ h0 h1]
  unfold outs4_C atPt4
  dsimp only
  rw [outC2_eq (F := F), soutC0_eq (F := F), soutC1_eq (F := F)]

end Steps

section Value
variable (V : (c : Dev nD) → (b : Ref sig .tc) → Buf (Elt Ideal) ((c : Thread nD τ).loc b))

theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0 :=
  (by decide +kernel : ∀ t : Fin grid4.N, _)

theorem idBlk_apply (c : Dev nD) (t : Fin cfg4.N) (r : Fin 5000) (h : 5000 * t.val + r.val < 100000) :
    idBlk V c t (ix2 r 0) = V c main_v38 (ix2 (⟨5000 * t.val + r.val, h⟩ : Fin 100000) 0) := by
  obtain ⟨e0, e1, -, -, -, -⟩ := idx_facts4 t
  show V c main_v38 (((cfg4.win 0).blk t).view.emb (ix2 r 0)) = V c main_v38 _
  refine congrArg (V c main_v38) (funext fun a => Fin.ext ?_)
  match a with
  | ⟨0, _⟩ => show win4_0.index t (0 : Fin 2) * 5000 + 1 * r.val = 5000 * t.val + r.val; omega
  | ⟨1, _⟩ => show win4_0.index t (1 : Fin 2) * 1 + 1 * 0 = 0; omega

theorem rowBlk_apply (c : Dev nD) (t : Fin cfg4.N) (r : Fin 5000) (k : Fin 128) (h : 5000 * t.val + r.val < 100000) :
    rowBlk V c t (ix2 r k) = V c main_v37 (ix2 (⟨5000 * t.val + r.val, h⟩ : Fin 100000) k) := by
  obtain ⟨-, -, e2, e3, -, -⟩ := idx_facts4 t
  show V c main_v37 (((cfg4.win 1).blk t).view.emb (ix2 r k)) = V c main_v37 _
  refine congrArg (V c main_v37) (funext fun a => Fin.ext ?_)
  match a with
  | ⟨0, _⟩ => show win4_1.index t (0 : Fin 2) * 5000 + 1 * r.val = 5000 * t.val + r.val; omega
  | ⟨1, _⟩ => show win4_1.index t (1 : Fin 2) * 128 + 1 * k.val = k.val; omega

def tileSum (c : Dev nD) (t : Fin cfg4.N) (g : Fin 64) (k : Fin 128) : EReal :=
  ∑ r : Fin 5000, Cert.Spec.member (idBlk V c t (ix2 r 0)) g * rowBlk V c t (ix2 r k)
def tileCnt (c : Dev nD) (t : Fin cfg4.N) (g : Fin 64) : EReal :=
  ∑ r : Fin 5000, Cert.Spec.member (idBlk V c t (ix2 r 0)) g * 1

/-- After point n the accumulators hold the sums, and the counts, over the rows of tiles 0 to n: induction on the point. -/
theorem acc_eq (c : Dev nD) : ∀ (n : ℕ) (hn : n < cfg4.N) (g : Fin 64),
    (∀ k : Fin 128, ((outsAt4 V c n hn).2.1 : Vec Ideal S64x128 .f32) (ix2 g k)
        = ∑ t : Fin (n + 1), tileSum V c ⟨t.val, Nat.lt_of_lt_of_le t.isLt hn⟩ g k)
    ∧ ((outsAt4 V c n hn).2.2 : Vec Ideal S64x1 .f32) (ix2 g 0)
        = ∑ t : Fin (n + 1), tileCnt V c ⟨t.val, Nat.lt_of_lt_of_le t.isLt hn⟩ g
  | 0, hn, g => by
    refine ⟨fun k => ?_, ?_⟩
    · refine (congrFun (accs_first V c hn).1 (ix2 g k)).trans ?_
      refine (pay4_4_apply (idBlk V c ⟨0, hn⟩) (rowBlk V c ⟨0, hn⟩) (k4_pay1 (F := Ideal)) g k).trans ?_
      rw [pay4_1_apply, zero_add]
      exact (Fin.sum_univ_one (fun t : Fin (0 + 1) => tileSum V c ⟨t.val, Nat.lt_of_lt_of_le t.isLt hn⟩ g k)).symm
    · refine (congrFun (accs_first V c hn).2 (ix2 g 0)).trans ?_
      refine (pay4_5_apply (idBlk V c ⟨0, hn⟩) (k4_pay2 (F := Ideal)) g).trans ?_
      rw [pay4_2_apply, zero_add]
      exact (Fin.sum_univ_one (fun t : Fin (0 + 1) => tileCnt V c ⟨t.val, Nat.lt_of_lt_of_le t.isLt hn⟩ g)).symm
  | n + 1, hn, g => by
    obtain ⟨ihS, ihC⟩ := acc_eq c n (Nat.lt_of_succ_lt hn) g
    refine ⟨fun k => ?_, ?_⟩
    · refine (congrFun (accs_next V c n hn).1 (ix2 g k)).trans ?_
      refine (pay4_4_apply (idBlk V c ⟨n + 1, hn⟩) (rowBlk V c ⟨n + 1, hn⟩) (outsAt4 V c n (Nat.lt_of_succ_lt hn)).2.1 g k).trans ?_
      rw [ihS k]
      exact (Fin.sum_univ_castSucc (fun t : Fin (n + 1 + 1) => tileSum V c ⟨t.val, Nat.lt_of_lt_of_le t.isLt hn⟩ g k)).symm
    · refine (congrFun (accs_next V c n hn).2 (ix2 g 0)).trans ?_
      refine (pay4_5_apply (idBlk V c ⟨n + 1, hn⟩) (outsAt4 V c n (Nat.lt_of_succ_lt hn)).2.2 g).trans ?_
      rw [ihC]
      exact (Fin.sum_univ_castSucc (fun t : Fin (n + 1 + 1) => tileCnt V c ⟨t.val, Nat.lt_of_lt_of_le t.isLt hn⟩ g)).symm

theorem tiles_sum (c : Dev nD) (n : ℕ) (hn : n < cfg4.N) (h19 : n = 19) (g : Fin 64) (k : Fin 128) :
    ∑ t : Fin (n + 1), tileSum V c ⟨t.val, Nat.lt_of_lt_of_le t.isLt hn⟩ g k
      = ∑ m : Fin 100000, Cert.Spec.member (V c main_v38 (ix2 m 0)) g * V c main_v37 (ix2 m k) := by
  have hN : cfg4.N = 20 := N_4
  have e : n + 1 = 20 := by omega
  rw [sum_tiles (fun m : Fin 100000 => Cert.Spec.member (V c main_v38 (ix2 m 0)) g * V c main_v37 (ix2 m k))]
  refine (Fin.sum_congr' (fun t : Fin 20 => tileSum V c ⟨t.val, lt_of_lt_of_eq t.isLt hN.symm⟩ g k) e).trans ?_
  refine Finset.sum_congr rfl fun t _ => Finset.sum_congr rfl fun r _ => ?_
  rw [idBlk_apply V c ⟨t.val, lt_of_lt_of_eq t.isLt hN.symm⟩ r, rowBlk_apply V c ⟨t.val, lt_of_lt_of_eq t.isLt hN.symm⟩ r k]

theorem tiles_cnt (c : Dev nD) (n : ℕ) (hn : n < cfg4.N) (h19 : n = 19) (g : Fin 64) :
    ∑ t : Fin (n + 1), tileCnt V c ⟨t.val, Nat.lt_of_lt_of_le t.isLt hn⟩ g
      = ∑ m : Fin 100000, Cert.Spec.member (V c main_v38 (ix2 m 0)) g * 1 := by
  have hN : cfg4.N = 20 := N_4
  have e : n + 1 = 20 := by omega
  rw [sum_tiles (fun m : Fin 100000 => Cert.Spec.member (V c main_v38 (ix2 m 0)) g * 1)]
  refine (Fin.sum_congr' (fun t : Fin 20 => tileCnt V c ⟨t.val, lt_of_lt_of_eq t.isLt hN.symm⟩ g) e).trans ?_
  refine Finset.sum_congr rfl fun t _ => Finset.sum_congr rfl fun r _ => ?_
  rw [idBlk_apply V c ⟨t.val, lt_of_lt_of_eq t.isLt hN.symm⟩ r]

theorem result_eq (c : Dev nD) (n : ℕ) (hn : n < cfg4.N) (h19 : n = 19) (g : Fin 64) (k : Fin 128) :
    ((outsAt4 V c n hn).1 : Vec Ideal S64x128 .f32) (ix2 g k) = Cert.Spec.poolCol (V c main_v38) (V c main_v37) (ix2 g k) := by
  refine (congrFun (res_last V c n hn h19) (ix2 g k)).trans ?_
  refine (pay4_6_apply (outsAt4 V c n hn).2.1 (outsAt4 V c n hn).2.2 g k).trans ?_
  obtain ⟨hS, hC⟩ := acc_eq V c n hn g
  rw [hS k, hC, tiles_sum V c n hn h19 g k, tiles_cnt V c n hn h19 g]
  rfl

section WriteBack

attribute [local irreducible] Cert.Spec.poolCol

theorem flushed4_eq (c : Dev nD) (t : Fin cfg4.N) (hf : (cfg4.win 2).flush t = true) :
    (dat4 (F := Ideal) V c).flushed 2 t
      = ((cfg4.win 2).blk t).view.read (Elt Ideal) (Cert.Spec.poolCol (V c main_v38) (V c main_v37)) := by
  have hN : cfg4.N = 20 := N_4
  have h19 : t.val = 19 := by have := (flush4_2 t).mp hf; have := t.isLt; omega
  show (cfg4.win 2).cut (grid4.coords t) ((dat4 V c).after 2 t) = _
  rw [after4_2]
  funext j
  obtain ⟨g, k, rfl⟩ : ∃ (g : Fin 64) (k : Fin 128), j = ix2 g k := ⟨j 0, j 1, eq_ix2 j⟩
  obtain ⟨-, -, -, -, e4, e5⟩ := idx_facts4 t
  have hr : ((cfg4.win 2).blk t).view.emb (ix2 g k) = ix2 g k := by
    funext a; apply Fin.ext
    match a with
    | ⟨0, _⟩ => show win4_2.index t (0 : Fin 2) * 64 + 1 * g.val = g.val; omega
    | ⟨1, _⟩ => show win4_2.index t (1 : Fin 2) * 128 + 1 * k.val = k.val; omega
  exact (result_eq V c t.val t.isLt h19 g k).trans (congrArg (Cert.Spec.poolCol (V c main_v38) (V c main_v37)) hr.symm)

end WriteBack

theorem mem_blk4 (t : Fin cfg4.N) (i : S64x128.Idx) :
    i ∈ ((cfg4.win 2).blk t).view.set ↔ ∀ a : Fin 2, win4_2.index t a * S64x128.size a ≤ (i a).val ∧ (i a).val < win4_2.index t a * S64x128.size a + S64x128.size a := by
  show i ∈ ((View.whole main_v39).slice (win4_2.rect t)).set ↔ _
  rw [View.set_slice_whole, Rect.mem_set_unit]
  exact Iff.rfl

theorem cover4 (i : S64x128.Idx) : ∃ t : Fin cfg4.N, (cfg4.win 2).flush t = true ∧ i ∈ ((cfg4.win 2).blk t).view.set := by
  have hi0 : (i 0).val < 64 := (i 0).isLt
  have hi1 : (i 1).val < 128 := (i 1).isLt
  have h19 : 19 < cfg4.N := by rw [show cfg4.N = 20 from N_4]; decide
  refine ⟨⟨19, h19⟩, (flush4_2 ⟨19, h19⟩).mpr rfl, ?_⟩
  obtain ⟨-, -, -, -, e4, e5⟩ := idx_facts4 ⟨19, h19⟩
  rw [mem_blk4]
  intro a
  match a with
  | ⟨0, _⟩ =>
    show win4_2.index ⟨19, h19⟩ (0 : Fin 2) * 64 ≤ (i 0).val ∧ (i 0).val < win4_2.index ⟨19, h19⟩ (0 : Fin 2) * 64 + 64
    omega
  | ⟨1, _⟩ =>
    show win4_2.index ⟨19, h19⟩ (1 : Fin 2) * 128 ≤ (i 1).val ∧ (i 1).val < win4_2.index ⟨19, h19⟩ (1 : Fin 2) * 128 + 128
    omega

end Value

/-- The last point stores each graph's sum of rows divided by its count raised to at least one. -/
theorem arr4 (V : (c : Dev nD) → (b : Ref sig .tc) → Buf (Elt Ideal) ((c : Thread nD τ).loc b)) (c : Dev nD) :
    (dat4 (F := Ideal) V c).arrAt 2 cfg4.N = Cert.Spec.poolCol (V c main_v38) (V c main_v37) :=
  (dat4 (F := Ideal) V c).arrAt_eq_of_cover 2 (Cert.Spec.poolCol (V c main_v38) (V c main_v37))
    (fun t hf => flushed4_eq V c t hf) cover4

end Cert.KernelIdeal.Hand

end
-- ==== Proof.KI.Value.lean ====
import proofs.«427324_j33749853012495_3_alg».proof.Proof.KI.Host
import proofs.«427324_j33749853012495_3_alg».proof.Proof.KI.Val0
import proofs.«427324_j33749853012495_3_alg».proof.Proof.KI.Val1
import proofs.«427324_j33749853012495_3_alg».proof.Proof.KI.Val2
import proofs.«427324_j33749853012495_3_alg».proof.Proof.KI.Val3
import proofs.«427324_j33749853012495_3_alg».proof.Proof.KI.Val4

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (c : Dev nD)

theorem V2_v12 : V2 m c main_v12 = Cert.Spec.mmScale (m ((c : Thread nD τ).loc main_arg0)) (m ((c : Thread nD τ).loc main_arg1)) (Cert.Spec.dinvCol (m ((c : Thread nD τ).loc main_arg5))) := by
  rw [show V2 m c main_v12 = _ from W2_arr m c 3, arr0 (V1 m) c, V1_arg0, V1_arg1, V1_v11]

theorem V4_v24 : V4 m c main_v24 = Cert.Spec.layerK (m ((c : Thread nD τ).loc main_arg0)) (m ((c : Thread nD τ).loc main_arg1)) (m ((c : Thread nD τ).loc main_arg2)) (m ((c : Thread nD τ).loc main_arg5)) := by
  rw [show V4 m c main_v24 = _ from W4_arr m c 4, arr1 (V3 m) c, V3_v22, V3_v12, V3_v11, V3_v23, V2_v12, V1_v11]
  exact (Cert.Spec.layerK_eq _ _ _ _).symm

theorem V5_v25 : V5 m c main_v25 = Cert.Spec.mmScale
      (Cert.Spec.layerK (m ((c : Thread nD τ).loc main_arg0)) (m ((c : Thread nD τ).loc main_arg1)) (m ((c : Thread nD τ).loc main_arg2)) (m ((c : Thread nD τ).loc main_arg5)))
      (m ((c : Thread nD τ).loc main_arg3)) (Cert.Spec.dinvCol (m ((c : Thread nD τ).loc main_arg5))) := by
  rw [show V5 m c main_v25 = _ from W5_arr m c 3, arr2 (V4 m) c, V4_v24, V4_arg3, V4_v11, V1_v11]

theorem V7_v37 : V7 m c main_v37 = Cert.Spec.layerK
      (Cert.Spec.layerK (m ((c : Thread nD τ).loc main_arg0)) (m ((c : Thread nD τ).loc main_arg1)) (m ((c : Thread nD τ).loc main_arg2)) (m ((c : Thread nD τ).loc main_arg5)))
      (m ((c : Thread nD τ).loc main_arg3)) (m ((c : Thread nD τ).loc main_arg4)) (m ((c : Thread nD τ).loc main_arg5)) := by
  rw [show V7 m c main_v37 = _ from W7_arr m c 4, arr3 (V6 m) c, V6_v35, V6_v25, V6_v11, V6_v36, V5_v25, V1_v11]
  exact (Cert.Spec.layerK_eq _ _ _ _).symm

/-- The kernel program's result is the network written the first way: the launches' arrays and the host stretches composed. -/
theorem kernel_value :
    W9 m c (Proc.devRef .tc main_v39) = Cert.Spec.netK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [show W9 m c (Proc.devRef .tc main_v39) = _ from W9_arr m c 2, arr4 (V8 m) c, V8_v38, V8_v37, V7_v37]
  unfold Cert.Spec.netK
  rw [Cert.Spec.poolK_eq]

end Cert.KernelIdeal.Hand

end
-- ==== Proof.Decode.lean ====
import proofs.«427324_j33749853012495_3_alg».proof.Proof.Spec

noncomputable section

namespace Cert.Spec

open Idealize.ShloMosaic Idealize.ShloMosaic.ValueIdx

def row (i : BitVec 32) : Fin 100000 := ⟨min i.toInt.toNat 99999, by omega⟩

theorem resultIdx?_eq_some_iff {s si u : Shape} {w : Nat} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro heq a
      have h1 := congrFun (Option.some.inj heq) a
      have h2 := congrArg Fin.val h1
      have h3 := h a
      simp only at h2
      omega
    · intro hall
      congr 1
      funext a
      refine Fin.ext ?_
      have h3 := hall a
      simp only
      omega
  · rename_i h
    constructor
    · intro heq
      exact absurd heq (by simp)
    · intro hall
      exfalso
      apply h
      intro a
      have h3 := hall a
      have h4 : (i a).val < s.size a := (i a).isLt
      omega

theorem gdRow_apply {α : Type} (x : SNxD.Idx → α) (idx : SEx1.Idx → BitVec 32) (j : SExD.Idx) :
    Host.gather gdRow x idx j = x (ix2 (row (idx (ix2 (j 0) 0))) (j 1)) := by
  unfold Host.gather
  congr 1
  funext a
  refine Fin.ext ?_
  match a with
  | ⟨0, _⟩ =>
    show gdRow.start j idx (0 : Fin 2) + gdRow.batchCoord j (0 : Fin 2) + gdRow.offCoord j (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gdRow.startIndexMap from List.mem_singleton.mpr rfl),
      show gdRow.siIdx j ⟨List.idxOf (0 : Fin 2) gdRow.startIndexMap, _⟩ = ix2 (j 0) 0 from funext fun b => Fin.ext (by
        match b with
        | ⟨0, _⟩ => rfl
        | ⟨1, _⟩ => rfl)]
    rfl
  | ⟨1, _⟩ =>
    show gdRow.start j idx (1 : Fin 2) + gdRow.batchCoord j (1 : Fin 2) + gdRow.offCoord j (1 : Fin 2) = _
    rw [GatherDims.batchCoord_eq_zero _ _ _ List.not_mem_nil]
    have hs : gdRow.start j idx (1 : Fin 2) = 0 := by
      unfold GatherDims.start
      rw [dif_neg (show (1 : Fin 2) ∉ gdRow.startIndexMap by decide)]
    rw [hs]
    simp only [Nat.add_zero, Nat.zero_add]
    unfold GatherDims.offCoord
    rw [dif_pos (show (1 : Fin 2) ∈ gdRow.sKept by decide)]
    rfl

theorem gdVec_apply {α : Type} (x : SN.Idx → α) (idx : SEx1.Idx → BitVec 32) (e : SE.Idx) :
    Host.gather gdVec x idx e = x (ix1 (row (idx (ix2 (e 0) 0)))) := by
  unfold Host.gather
  congr 1
  funext a
  refine Fin.ext ?_
  match a with
  | ⟨0, _⟩ =>
    show gdVec.start e idx (0 : Fin 1) + gdVec.batchCoord e (0 : Fin 1) + gdVec.offCoord e (0 : Fin 1) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gdVec.startIndexMap from List.mem_singleton.mpr rfl),
      show gdVec.siIdx e ⟨List.idxOf (0 : Fin 1) gdVec.startIndexMap, _⟩ = ix2 (e 0) 0 from funext fun b => Fin.ext (by
        match b with
        | ⟨0, _⟩ => rfl
        | ⟨1, _⟩ => rfl)]
    rfl

theorem sdDeg_lands (idx : SEx1.Idx → BitVec 32) (e : SE.Idx) (v : SN.Idx) :
    sdDeg.resultIdx? e idx = some v ↔ (idx (ix2 (e 0) 0)).toInt = ((v 0).val : ℤ) := by
  have hs : sdDeg.start e idx (0 : Fin 1) = (idx (ix2 (e 0) 0)).toInt := by
    unfold ScatterDims.start
    rw [dif_pos (show (0 : Fin 1) ∈ sdDeg.scatterDimsToOperandDims from List.mem_singleton.mpr rfl)]
    exact congrArg (fun q => (idx q).toInt) (funext fun b => Fin.ext (by
      match b with
      | ⟨0, _⟩ => rfl
      | ⟨1, _⟩ => rfl))
  have hw : sdDeg.window e (0 : Fin 1) = 0 := by
    unfold ScatterDims.window
    rw [dif_neg (show (0 : Fin 1) ∉ sdDeg.sKept by decide)]
  rw [resultIdx?_eq_some_iff, Fin.forall_fin_one, hs, hw]
  omega

/-- Which update row lands on which node row: the one whose edge has that node as its destination. -/
theorem sdAgg_lands (idx : SEx1.Idx → BitVec 32) (j : SExD.Idx) (i : SNxD.Idx) :
    sdAgg.resultIdx? j idx = some i ↔ (idx (ix2 (j 0) 0)).toInt = ((i 0).val : ℤ) ∧ (j 1).val = (i 1).val := by
  have hs0 : sdAgg.start j idx (0 : Fin 2) = (idx (ix2 (j 0) 0)).toInt := by
    unfold ScatterDims.start
    rw [dif_pos (show (0 : Fin 2) ∈ sdAgg.scatterDimsToOperandDims from List.mem_singleton.mpr rfl)]
    exact congrArg (fun q => (idx q).toInt) (funext fun b => Fin.ext (by
      match b with
      | ⟨0, _⟩ => rfl
      | ⟨1, _⟩ => rfl))
  have hw0 : sdAgg.window j (0 : Fin 2) = 0 := by
    unfold ScatterDims.window
    rw [dif_neg (show (0 : Fin 2) ∉ sdAgg.sKept by decide)]
  have hs1 : sdAgg.start j idx (1 : Fin 2) = 0 := by
    unfold ScatterDims.start
    rw [dif_neg (show (1 : Fin 2) ∉ sdAgg.scatterDimsToOperandDims by decide)]
  have hw1 : sdAgg.window j (1 : Fin 2) = (j 1).val := by
    unfold ScatterDims.window
    rw [dif_pos (show (1 : Fin 2) ∈ sdAgg.sKept by decide)]
    rfl
  rw [resultIdx?_eq_some_iff, Fin.forall_fin_two, hs0, hw0, hs1, hw1]
  omega

theorem sdPool_lands (idx : SNx1.Idx → BitVec 32) (j : SNxD.Idx) (i : SGxD.Idx) :
    sdPool.resultIdx? j idx = some i ↔ (idx (ix2 (j 0) 0)).toInt = ((i 0).val : ℤ) ∧ (j 1).val = (i 1).val := by
  have hs0 : sdPool.start j idx (0 : Fin 2) = (idx (ix2 (j 0) 0)).toInt := by
    unfold ScatterDims.start
    rw [dif_pos (show (0 : Fin 2) ∈ sdPool.scatterDimsToOperandDims from List.mem_singleton.mpr rfl)]
    exact congrArg (fun q => (idx q).toInt) (funext fun b => Fin.ext (by
      match b with
      | ⟨0, _⟩ => rfl
      | ⟨1, _⟩ => rfl))
  have hw0 : sdPool.window j (0 : Fin 2) = 0 := by
    unfold ScatterDims.window
    rw [dif_neg (show (0 : Fin 2) ∉ sdPool.sKept by decide)]
  have hs1 : sdPool.start j idx (1 : Fin 2) = 0 := by
    unfold ScatterDims.start
    rw [dif_neg (show (1 : Fin 2) ∉ sdPool.scatterDimsToOperandDims by decide)]
  have hw1 : sdPool.window j (1 : Fin 2) = (j 1).val := by
    unfold ScatterDims.window
    rw [dif_pos (show (1 : Fin 2) ∈ sdPool.sKept by decide)]
    rfl
  rw [resultIdx?_eq_some_iff, Fin.forall_fin_two, hs0, hw0, hs1, hw1]
  omega

theorem sdCnt_lands (idx : SNx1.Idx → BitVec 32) (n : SN.Idx) (g : SG.Idx) :
    sdCnt.resultIdx? n idx = some g ↔ (idx (ix2 (n 0) 0)).toInt = ((g 0).val : ℤ) := by
  have hs : sdCnt.start n idx (0 : Fin 1) = (idx (ix2 (n 0) 0)).toInt := by
    unfold ScatterDims.start
    rw [dif_pos (show (0 : Fin 1) ∈ sdCnt.scatterDimsToOperandDims from List.mem_singleton.mpr rfl)]
    exact congrArg (fun q => (idx q).toInt) (funext fun b => Fin.ext (by
      match b with
      | ⟨0, _⟩ => rfl
      | ⟨1, _⟩ => rfl))
  have hw : sdCnt.window n (0 : Fin 1) = 0 := by
    unfold ScatterDims.window
    rw [dif_neg (show (0 : Fin 1) ∉ sdCnt.sKept by decide)]
  rw [resultIdx?_eq_some_iff, Fin.forall_fin_one, hs, hw]
  omega

end Cert.Spec

end
-- ==== Proof.Ref.Value.lean ====
import proofs.«427324_j33749853012495_3_alg».proof.Proof.Gen.ReferenceIdeal.Run
import proofs.«427324_j33749853012495_3_alg».proof.Proof.Gen.ReferenceIdeal.Read
import proofs.«427324_j33749853012495_3_alg».proof.Proof.Spec
import proofs.«427324_j33749853012495_3_alg».proof.Proof.Decode

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.Read

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (ei : (⟨S2x1600000, .i32⟩ : BufTy).Contents (Elt Ideal))
  (bt : (⟨S100000, .i32⟩ : BufTy).Contents (Elt Ideal))

local macro "idx_ext1" : tactic =>
  `(tactic| (funext a; exact Fin.ext (by match a with | ⟨0, _⟩ => rfl)))
local macro "idx_ext2" : tactic =>
  `(tactic| (funext a; exact Fin.ext (by match a with | ⟨0, _⟩ => rfl | ⟨1, _⟩ => rfl)))

theorem sdDeg_eq : scatter_S100000_S1600000x1_S1600000_n_0_0_1 = Cert.Spec.sdDeg := rfl
theorem sdAgg_eq : scatter_S100000x128_S1600000x1_S1600000x128_1_0_0_1 = Cert.Spec.sdAgg := rfl
theorem sdPool_eq : scatter_S64x128_S100000x1_S100000x128_1_0_0_1 = Cert.Spec.sdPool := rfl
theorem sdCnt_eq : scatter_S64_S100000x1_S100000_n_0_0_1 = Cert.Spec.sdCnt := rfl
theorem gdVec_eq : gather_S100000_S1600000x1_S1600000_n_0_n_n_0_1_1 = Cert.Spec.gdVec := rfl
theorem gdRow_eq : gather_S100000x128_S1600000x1_S1600000x128_1_0_n_n_0_1_1128 = Cert.Spec.gdRow := rfl

theorem scatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

theorem one_eq : Ideal.ofBits .f32 0x3F800000#32 = 1 := by
  simp [Ideal.ofBits, Ideal.ieee]
  rw [← EReal.coe_mul]
  norm_num

theorem src_apply (i : S1600000.Idx) : val_main_v1 (F := Ideal) ei i = ei (ix2 0 (i 0)) := by
  rw [val_main_v1_apply, val_main_v0_apply]
  congr 1
  funext a
  exact Fin.ext (by
    match a with
    | ⟨0, _⟩ => rfl
    | ⟨1, _⟩ => exact Nat.mod_eq_of_lt (i 0).isLt)

theorem dst_apply (i : S1600000.Idx) : val_main_v3 (F := Ideal) ei i = ei (ix2 1 (i 0)) := by
  rw [val_main_v3_apply, val_main_v2_apply]
  congr 1
  funext a
  exact Fin.ext (by
    match a with
    | ⟨0, _⟩ => rfl
    | ⟨1, _⟩ => exact Nat.mod_eq_of_lt (i 0).isLt)

theorem v7_eq : val_main_v7 (F := Ideal) ei = Cert.Spec.dstI ei := by
  funext j
  rw [val_main_v7_apply, dst_apply]
  rfl

theorem v38_eq : val_main_v38 (F := Ideal) ei = Cert.Spec.dstI ei := by
  funext j
  rw [val_main_v38_apply, dst_apply]
  rfl

theorem v16_apply (i : S1600000.Idx) : val_main_v16 (F := Ideal) ei i = Cert.Spec.wrap (ei (ix2 0 (i 0))) := by
  rw [val_main_v16_apply, val_main_v13_apply, val_main_v15_apply, val_main_v12_apply, val_main_v14_apply,
    val_main_c_apply, val_main_c_2_apply, src_apply]
  rfl

theorem v17_eq : val_main_v17 (F := Ideal) ei = Cert.Spec.srcI ei := by
  funext j
  rw [val_main_v17_apply, v16_apply]
  rfl

theorem v23_apply (i : S1600000.Idx) : val_main_v23 (F := Ideal) ei i = Cert.Spec.wrap (ei (ix2 1 (i 0))) := by
  rw [val_main_v23_apply, val_main_v20_apply, val_main_v22_apply, val_main_v19_apply, val_main_v21_apply,
    val_main_c_3_apply, val_main_c_4_apply, dst_apply]
  rfl

theorem v24_eq : val_main_v24 (F := Ideal) ei = Cert.Spec.dstW ei := by
  funext j
  rw [val_main_v24_apply, v23_apply]
  rfl

theorem v31_apply (i : S1600000.Idx) : val_main_v31 (F := Ideal) ei i = Cert.Spec.wrap (ei (ix2 0 (i 0))) := by
  rw [val_main_v31_apply, val_main_v28_apply, val_main_v30_apply, val_main_v27_apply, val_main_v29_apply,
    val_main_c_5_apply, val_main_c_6_apply, src_apply]
  rfl

theorem v32_eq : val_main_v32 (F := Ideal) ei = Cert.Spec.srcI ei := by
  funext j
  rw [val_main_v32_apply, v31_apply]
  rfl

theorem v95_eq : val_main_v95 (F := Ideal) bt = Cert.Spec.btI bt := by
  funext j
  rw [val_main_v95_apply]
  show bt (idx_main_v95 j) = bt (ix1 (j 0) : S100000.Idx)
  exact congrArg bt (by idx_ext1)

theorem v99_eq : val_main_v99 (F := Ideal) bt = Cert.Spec.btI bt := by
  funext j
  rw [val_main_v99_apply]
  show bt (idx_main_v99 j) = bt (ix1 (j 0) : S100000.Idx)
  exact congrArg bt (by idx_ext1)

theorem v5_eq : val_main_v5 (F := Ideal) = fun _ => (1 : EReal) := by
  funext i; rw [val_main_v5_apply, val_main_cst_apply]; exact one_eq

theorem v6_eq : val_main_v6 (F := Ideal) = fun _ => (0 : EReal) := by
  funext i; rw [val_main_v6_apply, val_main_cst_0_apply]; exact Ideal.ofBits_zero_f32

theorem v8_eq : val_main_v8 (F := Ideal) ei
    = Ideal.hostScatterAdd Cert.Spec.sdDeg (fun _ => (0 : EReal)) (Cert.Spec.dstI ei) (fun _ => (1 : EReal)) := by
  unfold val_main_v8
  rw [v7_eq, sdDeg_eq, v6_eq, v5_eq]
  exact scatterAdd_ideal (φ := .f32) _ _ _ _

theorem v11_eq : val_main_v11 (F := Ideal) ei = Cert.Spec.dinv ei := by
  funext v
  rw [val_main_v11_apply, val_main_v10_apply, val_main_v9_apply, val_main_cst_1_apply, v8_eq,
    Ideal.hostUnary_rsqrt_def, Ideal.addf_def, Ideal.ofBits_def, one_eq]
  rfl

theorem lidx4 (i : S100000x128.Idx) (k : Fin 128) : lidx_main_v4 i k = (ix2 (i 0) k : S100000x128.Idx) := by idx_ext2
theorem ridx4 (i : S100000x128.Idx) (k : Fin 128) : ridx_main_v4 i k = (ix2 k (i 1) : S128x128.Idx) := by idx_ext2

theorem v4_eq : val_main_v4 (F := Ideal) x0 x1 = Cert.Spec.xw x0 x1 := by
  funext i
  rw [val_main_v4_apply]
  refine Finset.sum_congr rfl fun k _ => ?_
  rw [lidx4, ridx4]

theorem v18_eq : val_main_v18 (F := Ideal) ei
    = Host.gather Cert.Spec.gdVec (Cert.Spec.dinv ei) (Cert.Spec.srcI ei) := by
  unfold val_main_v18
  rw [v11_eq, v17_eq, gdVec_eq]

theorem v25_eq : val_main_v25 (F := Ideal) ei
    = Host.gather Cert.Spec.gdVec (Cert.Spec.dinv ei) (Cert.Spec.dstW ei) := by
  unfold val_main_v25
  rw [v11_eq, v24_eq, gdVec_eq]

theorem v26_eq : val_main_v26 (F := Ideal) ei = Cert.Spec.norm ei := by
  funext e
  rw [val_main_v26_apply, v18_eq, v25_eq, Ideal.mulf_def]
  rfl

theorem v33_eq : val_main_v33 (F := Ideal) x0 x1 ei
    = Host.gather Cert.Spec.gdRow (Cert.Spec.xw x0 x1) (Cert.Spec.srcI ei) := by
  unfold val_main_v33
  rw [v4_eq, v32_eq, gdRow_eq]

theorem idx35 (j : S1600000x128.Idx) : idx_main_v34 (idx_main_v35 j) = (ix1 (j 0) : S1600000.Idx) := by idx_ext1

theorem v36_eq : val_main_v36 (F := Ideal) x0 x1 ei
    = fun j => Host.gather Cert.Spec.gdRow (Cert.Spec.xw x0 x1) (Cert.Spec.srcI ei) j * Cert.Spec.norm ei (ix1 (j 0)) := by
  funext j
  rw [val_main_v36_apply, v33_eq, val_main_v35_apply, val_main_v34_apply, v26_eq, idx35, Ideal.mulf_def]

theorem v37_eq : val_main_v37 (F := Ideal) = fun _ => (0 : EReal) := by
  funext i; rw [val_main_v37_apply, val_main_cst_7_apply]; exact Ideal.ofBits_zero_f32

theorem v39_eq : val_main_v39 (F := Ideal) x0 x1 ei = Cert.Spec.aggR x0 x1 ei := by
  unfold val_main_v39
  rw [v37_eq, v38_eq, v36_eq, sdAgg_eq]
  exact scatterAdd_ideal (φ := .f32) _ _ _ _

theorem idx42 (i : S100000x128.Idx) : idx_main_v41 (idx_main_v42 i) = (ix1 (i 0) : S100000.Idx) := by idx_ext1
theorem idx46 (i : S100000x128.Idx) : idx_main_v45 (idx_main_v46 i) = (ix1 (i 1) : S128.Idx) := by idx_ext1

theorem v48_eq : val_main_v48 (F := Ideal) x0 x1 x2 ei = Cert.Spec.layerR x0 x1 x2 ei := by
  funext i
  rw [val_main_v48_apply, val_main_v47_apply, val_main_v44_apply, v39_eq, val_main_v43_apply, v4_eq,
    val_main_v42_apply, val_main_v41_apply, val_main_v40_apply, v11_eq, idx42, val_main_v46_apply,
    val_main_v45_apply, idx46, val_main_call0_v0_apply, val_main_call0_cst_apply]
  simp only [Ideal.maximumf_def, Ideal.addf_def, Ideal.mulf_def, Ideal.ofBits_def, Ideal.ofBits_zero_f32]
  rfl

/-- The second layer is the first layer's operations again, over the first layer's result. -/
theorem v93_eq : val_main_v93 (F := Ideal) x0 x1 x2 x3 x4 ei
    = Cert.Spec.layerR (Cert.Spec.layerR x0 x1 x2 ei) x3 x4 ei :=
  (v48_eq (val_main_v48 (F := Ideal) x0 x1 x2 ei) x3 x4 ei).trans (by rw [v48_eq])

theorem v94_eq : val_main_v94 (F := Ideal) = fun _ => (0 : EReal) := by
  funext i; rw [val_main_v94_apply, val_main_cst_18_apply]; exact Ideal.ofBits_zero_f32

theorem v97_eq : val_main_v97 (F := Ideal) = fun _ => (1 : EReal) := by
  funext i; rw [val_main_v97_apply, val_main_cst_19_apply]; exact one_eq

theorem v98_eq : val_main_v98 (F := Ideal) = fun _ => (0 : EReal) := by
  funext i; rw [val_main_v98_apply, val_main_cst_20_apply]; exact Ideal.ofBits_zero_f32

theorem v96_eq : val_main_v96 (F := Ideal) x0 x1 x2 x3 x4 ei bt
    = Ideal.hostScatterAdd Cert.Spec.sdPool (fun _ => (0 : EReal)) (Cert.Spec.btI bt)
        (Cert.Spec.layerR (Cert.Spec.layerR x0 x1 x2 ei) x3 x4 ei) := by
  unfold val_main_v96
  rw [v94_eq, v95_eq, v93_eq, sdPool_eq]
  exact scatterAdd_ideal (φ := .f32) _ _ _ _

theorem v100_eq : val_main_v100 (F := Ideal) bt
    = Ideal.hostScatterAdd Cert.Spec.sdCnt (fun _ => (0 : EReal)) (Cert.Spec.btI bt) (fun _ => (1 : EReal)) := by
  unfold val_main_v100
  rw [v98_eq, v99_eq, v97_eq, sdCnt_eq]
  exact scatterAdd_ideal (φ := .f32) _ _ _ _

theorem idx104 (i : S64x128.Idx) : idx_main_v103 (idx_main_v104 i) = (ix1 (i 0) : S64.Idx) := by idx_ext1

theorem v105_eq : val_main_v105 (F := Ideal) x0 x1 x2 x3 x4 ei bt = Cert.Spec.netR x0 x1 x2 x3 x4 ei bt := by
  funext i
  rw [val_main_v105_apply, v96_eq, val_main_v104_apply, val_main_v103_apply, idx104, val_main_v102_apply,
    v100_eq, val_main_v101_apply, val_main_cst_21_apply]
  simp only [Ideal.hostDivf_def, Ideal.maximumf_def, Ideal.ofBits_def, one_eq]
  rfl

/-- The plain program's result, read one operation at a time, is the network written the second way. -/
theorem res_eq (m : (ℓ : Loc nD τ sig) → Buf (Elt Ideal) ℓ) (c : Dev nD) :
    Cert.ReferenceIdeal.Value.res_out0 (F := Ideal) m c
      = Cert.Spec.netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (Read.val_main_v105_eq (F := Ideal) m c).trans (v105_eq _ _ _ _ _ _ _)

end Cert.ReferenceIdeal.RefValue

end
-- ==== Proof.AlgLayer.lean ====
import proofs.«427324_j33749853012495_3_alg».proof.Proof.Spec
import proofs.«427324_j33749853012495_3_alg».proof.Proof.Decode

noncomputable section

namespace Cert.Spec

open Idealize.ShloMosaic Idealize.ShloMosaic.ValueIdx

namespace Layer

theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

theorem real_zero : ∃ r : ℝ, (0 : EReal) = (r : EReal) := ⟨0, EReal.coe_zero.symm⟩

theorem real_max_zero {a : EReal} (ha : ∃ r : ℝ, a = (r : EReal)) : ∃ r : ℝ, max a 0 = (r : EReal) := by
  obtain ⟨r, rfl⟩ := ha
  refine ⟨max r 0, ?_⟩
  rw [← EReal.coe_zero]
  exact (EReal.coe_strictMono.monotone.map_max).symm

theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

theorem sum_mul_real {ι : Type} (s : Finset ι) (f : ι → EReal) (d : ℝ)
    (hf : ∀ i ∈ s, ∃ r : ℝ, f i = (r : EReal)) :
    ∑ i ∈ s, f i * (d : EReal) = (∑ i ∈ s, f i) * (d : EReal) := by
  classical
  choose! g hg using hf
  rw [Finset.sum_congr rfl fun i hi => by rw [hg i hi, ← EReal.coe_mul],
    Finset.sum_congr rfl fun i hi => hg i hi, ← coe_sum_real, ← coe_sum_real, ← EReal.coe_mul, Finset.sum_mul]

theorem sum_one_real {ι : Type} (s : Finset ι) :
    ∃ r : ℝ, 0 ≤ r ∧ ∑ _i ∈ s, (1 : EReal) = (r : EReal) := by
  classical
  induction s using Finset.induction_on with
  | empty => exact ⟨0, le_refl 0, by simp⟩
  | insert a s ha ih =>
    obtain ⟨r, hr, e⟩ := ih
    refine ⟨1 + r, by linarith, ?_⟩
    rw [Finset.sum_insert ha, e, EReal.coe_add, EReal.coe_one]

theorem deg_real (ei : S2xE.Idx → BitVec 32) (v : SN.Idx) : ∃ r : ℝ, 0 < r ∧ deg ei v = (r : EReal) := by
  obtain ⟨r, hr, e⟩ := sum_one_real
    (Finset.univ.filter (fun j : SE.Idx => sdDeg.resultIdx? j (dstI ei) = some v))
  refine ⟨r + 1, by linarith, ?_⟩
  unfold deg Ideal.hostScatterAdd
  rw [e, zero_add, EReal.coe_add, EReal.coe_one]

end Layer

open Layer

theorem dinv_real (ei : S2xE.Idx → BitVec 32) : IsReal (dinv ei) := by
  intro v
  obtain ⟨r, hr, e⟩ := deg_real ei v
  refine ⟨(Real.sqrt r)⁻¹, ?_⟩
  unfold dinv
  rw [e, Ideal.rsqrt_coe, if_neg (not_lt.mpr hr.le), if_neg hr.ne']

namespace Layer

theorem wrap_of_nonneg (w : BitVec 32) (h : 0 ≤ w.toInt) : wrap w = w := by
  have hc : IntOp.cmpi .slt w 0#32 = 0#1 := by
    simp [IntOp.cmpi, BitVec.slt, not_lt.mpr h]
  unfold wrap
  rw [hc, select_zero]

theorem row_of_toInt (w : BitVec 32) (v : Fin 100000) (h : w.toInt = (v.val : ℤ)) : row w = v := by
  apply Fin.ext
  show min w.toInt.toNat 99999 = v.val
  rw [h, Int.toNat_natCast]
  exact min_eq_left (by omega)

theorem xw_real (x : SNxD.Idx → EReal) (W : SDxD.Idx → EReal) (hx : IsReal x) (hW : IsReal W) (i : SNxD.Idx) :
    ∃ r : ℝ, xw x W i = (r : EReal) :=
  real_sum _ _ fun k _ => real_mul (hx _) (hW _)

theorem scaled_real (x : SNxD.Idx → EReal) (W : SDxD.Idx → EReal) (ei : S2xE.Idx → BitVec 32)
    (hx : IsReal x) (hW : IsReal W) (i : SNxD.Idx) : ∃ r : ℝ, scaled x W ei i = (r : EReal) :=
  real_mul (xw_real x W hx hW i) (dinv_real ei _)

theorem aggK_real (x : SNxD.Idx → EReal) (W : SDxD.Idx → EReal) (ei : S2xE.Idx → BitVec 32)
    (hx : IsReal x) (hW : IsReal W) (i : SNxD.Idx) : ∃ r : ℝ, aggK x W ei i = (r : EReal) := by
  unfold aggK Ideal.hostScatterAdd
  refine real_add real_zero (real_sum _ _ fun j _ => ?_)
  rw [gdRow_apply]
  exact scaled_real x W ei hx hW _

/-- A message normalised by both factors is the destination's factor times the message scaled by the source's: associativity and commutativity of real products. -/
theorem message_eq (x : SNxD.Idx → EReal) (W : SDxD.Idx → EReal) (ei : S2xE.Idx → BitVec 32)
    (v : Fin 100000) (k : Fin 128) (j : SExD.Idx) (hj : sdAgg.resultIdx? j (dstI ei) = some (ix2 v k)) :
    Host.gather gdRow (xw x W) (srcI ei) j * norm ei (ix1 (j 0))
      = Host.gather gdRow (scaled x W ei) (srcI ei) j * dinv ei (ix1 v) := by
  have h0 : (dstI ei (ix2 (j 0) 0)).toInt = ((v.val : ℕ) : ℤ) := ((sdAgg_lands (dstI ei) j (ix2 v k)).mp hj).1
  have hd : dstW ei (ix2 (j 0) 0) = dstI ei (ix2 (j 0) 0) :=
    wrap_of_nonneg _ (by rw [show ei (ix2 1 ((ix2 (j 0) 0 : SEx1.Idx) 0)) = dstI ei (ix2 (j 0) 0) from rfl, h0]; exact Int.natCast_nonneg _)
  have hr : row (dstW ei (ix2 (j 0) 0)) = v := by rw [hd]; exact row_of_toInt _ v h0
  rw [gdRow_apply, gdRow_apply]
  unfold norm scaled
  rw [gdVec_apply, gdVec_apply]
  show xw x W (ix2 (row (srcI ei (ix2 (j 0) 0))) (j 1))
        * (dinv ei (ix1 (row (srcI ei (ix2 (j 0) 0)))) * dinv ei (ix1 (row (dstW ei (ix2 (j 0) 0)))))
      = xw x W (ix2 (row (srcI ei (ix2 (j 0) 0))) (j 1)) * dinv ei (ix1 (row (srcI ei (ix2 (j 0) 0))))
        * dinv ei (ix1 v)
  rw [hr, mul_assoc]

/-- The destination's factor is the same for every edge into a node, so it leaves the sum over them: distributivity, which needs real summands. -/
theorem aggR_eq (x : SNxD.Idx → EReal) (W : SDxD.Idx → EReal) (ei : S2xE.Idx → BitVec 32)
    (hx : IsReal x) (hW : IsReal W) (v : Fin 100000) (k : Fin 128) :
    aggR x W ei (ix2 v k) = aggK x W ei (ix2 v k) * dinv ei (ix1 v) := by
  obtain ⟨d, hd⟩ := dinv_real ei (ix1 v)
  unfold aggR aggK Ideal.hostScatterAdd
  rw [zero_add, zero_add, hd, ← sum_mul_real _ _ d fun j _ => by rw [gdRow_apply]; exact scaled_real x W ei hx hW _]
  refine Finset.sum_congr rfl fun j hj => ?_
  refine (message_eq x W ei v k j (Finset.mem_filter.mp hj).2).trans ?_
  rw [hd]

end Layer

theorem layerK_real (x : SNxD.Idx → EReal) (W : SDxD.Idx → EReal) (b : SD.Idx → EReal) (ei : S2xE.Idx → BitVec 32)
    (hx : IsReal x) (hW : IsReal W) (hb : IsReal b) : IsReal (layerK x W b ei) := by
  intro i
  unfold layerK
  exact real_max_zero (real_add (real_mul (dinv_real ei _)
    (real_add (aggK_real x W ei hx hW i) (scaled_real x W ei hx hW i))) (hb _))

/-- One layer written both ways agrees on real inputs. -/
theorem layerK_eq_layerR (x : SNxD.Idx → EReal) (W : SDxD.Idx → EReal) (b : SD.Idx → EReal) (ei : S2xE.Idx → BitVec 32)
    (hx : IsReal x) (hW : IsReal W) (hb : IsReal b) : layerK x W b ei = layerR x W b ei := by
  funext i
  obtain ⟨v, k, rfl⟩ : ∃ v k, i = ix2 v k := ⟨i 0, i 1, eq_ix2 i⟩
  obtain ⟨d, hd⟩ := dinv_real ei (ix1 v)
  obtain ⟨w, hw⟩ := xw_real x W hx hW (ix2 v k)
  obtain ⟨c, hc⟩ := hb (ix1 k)
  obtain ⟨a, ha⟩ := aggK_real x W ei hx hW (ix2 v k)
  show max (dinv ei (ix1 v) * (aggK x W ei (ix2 v k) + xw x W (ix2 v k) * dinv ei (ix1 v)) + b (ix1 k)) 0
      = max ((aggR x W ei (ix2 v k) + xw x W (ix2 v k) * (dinv ei (ix1 v) * dinv ei (ix1 v))) + b (ix1 k)) 0
  rw [aggR_eq x W ei hx hW v k, ha, hd, hw, hc]
  have e : d * (a + w * d) + c = a * d + w * (d * d) + c := by ring
  simp only [← EReal.coe_mul, ← EReal.coe_add]
  rw [e]

end Cert.Spec

end
-- ==== Proof.AlgPool.lean ====
import proofs.«427324_j33749853012495_3_alg».proof.Proof.Spec
import proofs.«427324_j33749853012495_3_alg».proof.Proof.Decode

noncomputable section

namespace Cert.Spec

open Idealize.ShloMosaic Idealize.ShloMosaic.ValueIdx

theorem eq_ofNat_iff_toInt (b : BitVec 32) (g : Fin 64) :
    b = BitVec.ofNat 32 g.val ↔ b.toInt = (g.val : ℤ) := by
  have hg := g.isLt
  have hof : (BitVec.ofNat 32 g.val).toInt = (g.val : ℤ) := by
    rw [BitVec.toInt_ofNat']
    have h32 : (2 : ℕ) ^ 32 = 4294967296 := by norm_num
    rw [h32]
    apply Int.bmod_eq_of_le_mul_two <;> omega
  constructor
  · rintro rfl
    exact hof
  · intro h
    exact BitVec.eq_of_toInt_eq (h.trans hof.symm)

theorem member_mul (b : BitVec 32) (g : Fin 64) (a : EReal) :
    member b g * a = if b.toInt = (g.val : ℤ) then a else 0 := by
  unfold member
  by_cases hb : b = BitVec.ofNat 32 g.val
  · rw [if_pos hb, if_pos ((eq_ofNat_iff_toInt b g).mp hb), one_mul]
  · rw [if_neg hb, if_neg (fun hc => hb ((eq_ofNat_iff_toInt b g).mpr hc)), zero_mul]

theorem sum_over_ix1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _
    (fun i => congrArg f (eq_ix1 i))

theorem scatterPool_apply (bt : SN.Idx → BitVec 32) (h : SNxD.Idx → EReal) (g : Fin 64) (k : Fin 128) :
    Ideal.hostScatterAdd sdPool (fun _ => (0 : EReal)) (btI bt) h (ix2 g k)
      = ∑ n : Fin 100000, if (bt (ix1 n)).toInt = (g.val : ℤ) then h (ix2 n k) else 0 := by
  unfold Ideal.hostScatterAdd
  rw [zero_add, Finset.sum_filter, sum_idx2]
  refine Finset.sum_congr rfl (fun n _ => ?_)
  by_cases hn : (bt (ix1 n)).toInt = (g.val : ℤ)
  · rw [if_pos hn, Finset.sum_eq_single k]
    · exact if_pos ((sdPool_lands (btI bt) (ix2 n k) (ix2 g k)).mpr ⟨hn, rfl⟩)
    · intro k' _ hk'
      refine if_neg (fun hc => hk' (Fin.ext ?_))
      exact ((sdPool_lands (btI bt) (ix2 n k') (ix2 g k)).mp hc).2
    · intro hk
      exact absurd (Finset.mem_univ k) hk
  · rw [if_neg hn]
    refine Finset.sum_eq_zero (fun k' _ => if_neg (fun hc => hn ?_))
    exact ((sdPool_lands (btI bt) (ix2 n k') (ix2 g k)).mp hc).1

theorem scatterCnt_apply (bt : SN.Idx → BitVec 32) (g : Fin 64) :
    Ideal.hostScatterAdd sdCnt (fun _ => (0 : EReal)) (btI bt) (fun _ => (1 : EReal)) (ix1 g)
      = ∑ n : Fin 100000, if (bt (ix1 n)).toInt = (g.val : ℤ) then (1 : EReal) else 0 := by
  unfold Ideal.hostScatterAdd
  rw [zero_add, Finset.sum_filter, sum_over_ix1]
  exact Finset.sum_congr rfl fun n _ => if_congr (sdCnt_lands (btI bt) (ix1 n) (ix1 g)) rfl rfl

/-- Summing the rows of a graph's nodes is the product of the membership matrix with the rows; the counts likewise. -/
theorem poolK_eq_poolR (bt : SN.Idx → BitVec 32) (h : SNxD.Idx → EReal) (hh : IsReal h) : poolK bt h = poolR bt h := by
  funext i
  obtain ⟨g, k, rfl⟩ : ∃ g k, i = ix2 g k := ⟨i 0, i 1, eq_ix2 i⟩
  show Ideal.div (∑ n : Fin 100000, member (bt (ix1 n)) g * h (ix2 n k))
      (max (∑ n : Fin 100000, member (bt (ix1 n)) g * 1) 1)
    = Ideal.div (Ideal.hostScatterAdd sdPool (fun _ => (0 : EReal)) (btI bt) h (ix2 g k))
      (max (Ideal.hostScatterAdd sdCnt (fun _ => (0 : EReal)) (btI bt) (fun _ => (1 : EReal)) (ix1 g)) 1)
  rw [scatterPool_apply, scatterCnt_apply]
  rw [Finset.sum_congr rfl (fun n _ => member_mul (bt (ix1 n)) g (h (ix2 n k))),
    Finset.sum_congr rfl (fun n _ => member_mul (bt (ix1 n)) g 1)]

end Cert.Spec

end
-- ==== Proof.Algebra.lean ====
import proofs.«427324_j33749853012495_3_alg».proof.Proof.AlgLayer
import proofs.«427324_j33749853012495_3_alg».proof.Proof.AlgPool

noncomputable section

namespace Cert.Spec

open Idealize.ShloMosaic Idealize.ShloMosaic.ValueIdx

/-- On real inputs the two ways of writing the network agree: layer by layer, then the pooling. -/
theorem netK_eq_netR (x : SNxD.Idx → EReal) (W1 : SDxD.Idx → EReal) (b1 : SD.Idx → EReal) (W2 : SDxD.Idx → EReal)
    (b2 : SD.Idx → EReal) (ei : S2xE.Idx → BitVec 32) (bt : SN.Idx → BitVec 32)
    (hx : IsReal x) (hW1 : IsReal W1) (hb1 : IsReal b1) (hW2 : IsReal W2) (hb2 : IsReal b2) :
    netK x W1 b1 W2 b2 ei bt = netR x W1 b1 W2 b2 ei bt := by
  have h1 := layerK_eq_layerR x W1 b1 ei hx hW1 hb1
  have r1 := layerK_real x W1 b1 ei hx hW1 hb1
  have h2 := layerK_eq_layerR (layerK x W1 b1 ei) W2 b2 ei r1 hW2 hb2
  have r2 := layerK_real (layerK x W1 b1 ei) W2 b2 ei r1 hW2 hb2
  unfold netK netR
  rw [poolK_eq_poolR bt _ r2, h2, h1]

end Cert.Spec

end
-- ==== Proof.LibFinite.lean ====
import Idealize.ShloMosaic.PureOps.Ideal
import Idealize.ShloMosaic.PureOps.Ideal.Laws
import Idealize.ShloMosaic.Lib.ReduceAll

noncomputable section

namespace FiniteTest

open Idealize.ShloMosaic

theorem inf_bits : Ideal.ofBits .f32 0x7F800000#32 = (⊤ : EReal) := by
  simp [Ideal.ofBits, Ideal.ieee]

theorem real_of_max_neg_lt_top (a : EReal) (h : max a (-a) < ⊤) : ∃ r : ℝ, a = (r : EReal) := by
  induction a using EReal.rec with
  | bot => simp at h
  | coe r => exact ⟨r, rfl⟩
  | top => simp at h

theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

theorem subsingleton_scalarIdx : Subsingleton (⟨0, ![]⟩ : Shape).Idx :=
  ⟨fun _ _ => funext fun d => d.elim0⟩

/-- If the conjunction over a whole array of |x| < +inf is true, every entry is a real number. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

end FiniteTest

end
-- ==== Proof.Finite.lean ====
import proofs.«427324_j33749853012495_3_alg».proof.Defs
import proofs.«427324_j33749853012495_3_alg».proof.Proof.Gen.Pre_finite_inputs
import proofs.«427324_j33749853012495_3_alg».proof.Proof.Spec
import proofs.«427324_j33749853012495_3_alg».proof.Proof.LibFinite

noncomputable section

namespace Cert.Proof

open Idealize.ShloMosaic Idealize.ShloMosaic.TcCoe Idealize.SL.Sem Cert.KernelIdeal

/-- The precondition says every entry of the five float inputs has absolute value below infinity, so each is a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (S := Cert.Spec.SNxD) (m ((c.tc : Thread Cert.KernelIdeal.nD Cert.KernelIdeal.τ).loc main_arg0))
    ∧ Cert.Spec.IsReal (S := Cert.Spec.SDxD) (m ((c.tc : Thread Cert.KernelIdeal.nD Cert.KernelIdeal.τ).loc main_arg1))
    ∧ Cert.Spec.IsReal (S := Cert.Spec.SD) (m ((c.tc : Thread Cert.KernelIdeal.nD Cert.KernelIdeal.τ).loc main_arg2))
    ∧ Cert.Spec.IsReal (S := Cert.Spec.SDxD) (m ((c.tc : Thread Cert.KernelIdeal.nD Cert.KernelIdeal.τ).loc main_arg3))
    ∧ Cert.Spec.IsReal (S := Cert.Spec.SD) (m ((c.tc : Thread Cert.KernelIdeal.nD Cert.KernelIdeal.τ).loc main_arg4)) := by

  have h0 := congrFun (h c) (fun d => d.elim0)
  dsimp only [Cert.Pre_finite_inputs.fn, Cert.Pre_finite_inputs.fn_part1, Idealize.ShloMosaic.andi] at h0

  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨FiniteTest.real_of_all_abs_lt_inf_at _ _ _ _ _ h0',
    FiniteTest.real_of_all_abs_lt_inf_at _ _ _ _ _ h1,
    FiniteTest.real_of_all_abs_lt_inf_at _ _ _ _ _ h2,
    FiniteTest.real_of_all_abs_lt_inf_at _ _ _ _ _ h3,
    FiniteTest.real_of_all_abs_lt_inf_at _ _ _ _ _ h4⟩

end Cert.Proof

end
-- ==== Proof.lean ====
import proofs.«427324_j33749853012495_3_alg».proof.Defs
import proofs.«427324_j33749853012495_3_alg».proof.Proof.Gen.Kernel
import proofs.«427324_j33749853012495_3_alg».proof.Proof.Gen.KernelIdeal
import proofs.«427324_j33749853012495_3_alg».proof.Proof.Gen.ReferenceIdeal
import proofs.«427324_j33749853012495_3_alg».proof.Proof.Gen.Pre_finite_inputs
import proofs.«427324_j33749853012495_3_alg».proof.Proof.Gen.ReferenceIdeal.Run
import proofs.«427324_j33749853012495_3_alg».proof.Proof.KB.Run
import proofs.«427324_j33749853012495_3_alg».proof.Proof.KI.Run
import proofs.«427324_j33749853012495_3_alg».proof.Proof.KI.Value
import proofs.«427324_j33749853012495_3_alg».proof.Proof.Ref.Value
import proofs.«427324_j33749853012495_3_alg».proof.Proof.Algebra
import proofs.«427324_j33749853012495_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: the kernel program computes the network with the destination's factor taken out of
    each node's sum, the plain program normalises every message; on real inputs the two agree by distributivity. -/
theorem algebraic : Cert.algebraic_KernelIdeal_ReferenceIdeal := by
  intro m ρ m' ρ' hpre hagree
  refine ⟨fun c => Cert.Spec.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v39 (by decide))).trans (Cert.KernelIdeal.Hand.kernel_value m c),
      (h c _ (Cert.KernelIdeal.Hand.mem_uc Cert.KernelIdeal.main_arg0 (by decide))).trans (Cert.KernelIdeal.Hand.W9_kept m c Cert.KernelIdeal.main_arg0 (by decide)),
      (h c _ (Cert.KernelIdeal.Hand.mem_uc Cert.KernelIdeal.main_arg1 (by decide))).trans (Cert.KernelIdeal.Hand.W9_kept m c Cert.KernelIdeal.main_arg1 (by decide)),
      (h c _ (Cert.KernelIdeal.Hand.mem_uc Cert.KernelIdeal.main_arg2 (by decide))).trans (Cert.KernelIdeal.Hand.W9_kept m c Cert.KernelIdeal.main_arg2 (by decide)),
      (h c _ (Cert.KernelIdeal.Hand.mem_uc Cert.KernelIdeal.main_arg3 (by decide))).trans (Cert.KernelIdeal.Hand.W9_kept m c Cert.KernelIdeal.main_arg3 (by decide)),
      (h c _ (Cert.KernelIdeal.Hand.mem_uc Cert.KernelIdeal.main_arg4 (by decide))).trans (Cert.KernelIdeal.Hand.W9_kept m c Cert.KernelIdeal.main_arg4 (by decide)),
      (h c _ (Cert.KernelIdeal.Hand.mem_uc Cert.KernelIdeal.main_arg5 (by decide))).trans (Cert.KernelIdeal.Hand.W9_kept m c Cert.KernelIdeal.main_arg5 (by decide)),
      (h c _ (Cert.KernelIdeal.Hand.mem_uc Cert.KernelIdeal.main_arg6 (by decide))).trans (Cert.KernelIdeal.Hand.W9_kept m c Cert.KernelIdeal.main_arg6 (by decide))⟩
  · refine (θ_run Cert.ReferenceIdeal.defs _ _).mono (fun r h c => ⟨?_, (h c).2⟩) (Cert.ReferenceIdeal.Value.run (F := Ideal) m' ρ')
    obtain ⟨r0, r1, r2, r3, r4⟩ := Cert.Proof.real_of_pre m hpre c
    obtain ⟨a0, a1, a2, a3, a4, a5, a6⟩ := hagree c
    refine (h c).1.trans ((Cert.ReferenceIdeal.RefValue.res_eq m' c).trans ?_)
    rw [a0, a1, a2, a3, a4, a5, a6]
    exact (Cert.Spec.netK_eq_netR _ _ _ _ _ _ _ r0 r1 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
